-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S800000x17 : Shape := ⟨2, ![800000, 17]⟩
abbrev S16x128 : Shape := ⟨2, ![16, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x256 : Shape := ⟨2, ![256, 256]⟩
abbrev S_ : Shape := ⟨0, ![]⟩
abbrev S1x800000 : Shape := ⟨2, ![1, 800000]⟩
abbrev S800000 : Shape := ⟨1, ![800000]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000x17 : S_.BroadcastsInDim S800000x17 (![] : Fin 0 → Fin S800000x17.rank)
  reducesTo_S800000x17_S_d0_1 : S800000x17.ReducesTo [0, 1] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part4 {F : FTy → Type} [FloatOps F] (main_arg1 : IVec S2x800000 32) (main_v63 : IVec S_ 1) (main_v67 : IVec S_ 1) : IVec S_ 1 :=
  let main_v68 : IVec S_ 1 := andi main_v63 main_v67
  let main_v69 : IVec S1x800000 32 := (extractStridedSlice S1x800000 ![0, 0] · slices_S2x800000_S1x800000_0_0) main_arg1
  let main_v70 : IVec S800000 32 := shapeCast S800000 main_v69 shapeCasts_S1x800000_S800000
  let main_c_26 : IVec S_ 32 := constantI S_ 32 0#32
  let main_v71 : IVec S800000 32 := broadcastInDim S800000 ![] bcast_S_S800000 main_c_26
  let main_v72 : IVec S800000 1 := cmpi .sge main_v70 main_v71
  let main_v73 : IVec S1x800000 32 := (extractStridedSlice S1x800000 ![0, 0] · slices_S2x800000_S1x800000_0_0) main_arg1
  let main_v74 : IVec S800000 32 := shapeCast S800000 main_v73 shapeCasts_S1x800000_S800000
  let main_c_27 : IVec S_ 32 := constantI S_ 32 50000#32
  let main_v75 : IVec S800000 32 := broadcastInDim S800000 ![] bcast_S_S800000 main_c_27
  let main_v76 : IVec S800000 1 := cmpi .slt main_v74 main_v75
  let main_v77 : IVec S800000 1 := andi main_v72 main_v76
  let main_c_28 : IVec S_ 1 := constantI S_ 1 1#1
  let main_v78 : IVec S_ 1 := (fun x v => Host.reduce IntOp.andi x v reducesTo_S800000_S_d0 h_S_) main_v77 main_c_28
  let main_v79 : IVec S_ 1 := andi main_v68 main_v78
  main_v79

def fn_part3 {F : FTy → Type} [FloatOps F] (main_arg1 : IVec S2x800000 32) (main_arg12 : FVec F S256 .f32) (main_arg13 : FVec F S256x256 .f32) (main_arg14 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg13
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg1 main_v63 main_v67

def fn_part2 {F : FTy → Type} [FloatOps F] (main_arg1 : IVec S2x800000 32) (main_arg8 : FVec F S256 .f32) (main_arg9 : FVec F S256x256 .f32) (main_arg10 : FVec F S256 .f32) (main_arg11 : FVec F S256 .f32) (main_arg12 : FVec F S256 .f32) (main_arg13 : FVec F S256x256 .f32) (main_arg14 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg1 main_arg12 main_arg13 main_arg14 main_v48 main_v49 main_v50

def fn_part1 {F : FTy → Type} [FloatOps F] (main_arg1 : IVec S2x800000 32) (main_arg5 : FVec F S128x128 .f32) (main_arg6 : FVec F S128 .f32) (main_arg7 : FVec F S128x256 .f32) (main_arg8 : FVec F S256 .f32) (main_arg9 : FVec F S256x256 .f32) (main_arg10 : FVec F S256 .f32) (main_arg11 : FVec F S256 .f32) (main_arg12 : FVec F S256 .f32) (main_arg13 : FVec F S256x256 .f32) (main_arg14 : FVec F S256 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg1 main_arg8 main_arg9 main_arg10 main_arg11 main_arg12 main_arg13 main_arg14 main_v33

def fn {F : FTy → Type} [FloatOps F] (main_arg0 : FVec F S50000x256 .f32) (main_arg1 : IVec S2x800000 32) (main_arg2 : FVec F S800000x17 .f32) (main_arg3 : FVec F S16x128 .f32) (main_arg4 : FVec F S128 .f32) (main_arg5 : FVec F S128x128 .f32) (main_arg6 : FVec F S128 .f32) (main_arg7 : FVec F S128x256 .f32) (main_arg8 : FVec F S256 .f32) (main_arg9 : FVec F S256x256 .f32) (main_arg10 : FVec F S256 .f32) (main_arg11 : FVec F S256 .f32) (main_arg12 : FVec F S256 .f32) (main_arg13 : FVec F S256x256 .f32) (main_arg14 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000x17 .f32 := Host.absf main_arg2
  let main_cst_0 : FVec F S_ .f32 := constant S_ .f32 0x7F800000#32
  let main_v5 : FVec F S800000x17 .f32 := broadcastInDim S800000x17 ![] bcast_S_S800000x17 main_cst_0
  let main_v6 : IVec S800000x17 1 := cmpf .olt main_v4 main_v5
  let main_c_1 : IVec S_ 1 := constantI S_ 1 1#1
  let main_v7 : IVec S_ 1 := (fun x v => Host.reduce IntOp.andi x v reducesTo_S800000x17_S_d0_1 h_S_) main_v6 main_c_1
  let main_v8 : IVec S_ 1 := andi main_v3 main_v7
  let main_v9 : FVec F S16x128 .f32 := Host.absf main_arg3
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_arg12 main_arg13 main_arg14 main_v13 main_v16
-- ==== Kernel.lean ====
abbrev S50000x256 : Shape := ⟨2, ![50000, 256]⟩
abbrev S2x800000 : Shape := ⟨2, ![2, 800000]⟩
abbrev S800000x17 : Shape := ⟨2, ![800000, 17]⟩
abbrev S16x128 : Shape := ⟨2, ![16, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S800000x1 : Shape := ⟨2, ![800000, 1]⟩
abbrev S_ : Shape := ⟨0, ![]⟩
abbrev S800000x16 : Shape := ⟨2, ![800000, 16]⟩
abbrev S800768 : Shape := ⟨1, ![800768]⟩
abbrev S800768x16 : Shape := ⟨2, ![800768, 16]⟩
abbrev S800768x1 : Shape := ⟨2, ![800768, 1]⟩
abbrev S800768x256 : Shape := ⟨2, ![800768, 256]⟩
abbrev S1024x16 : Shape := ⟨2, ![1024, 16]⟩
abbrev S1024x1 : Shape := ⟨2, ![1024, 1]⟩
abbrev S1024 : Shape := ⟨1, ![1024]⟩
abbrev S1024x256 : Shape := ⟨2, ![1024, 256]⟩
abbrev S1024x128 : Shape := ⟨2, ![1024, 128]⟩
abbrev S1x128 : Shape := ⟨2, ![1, 128]⟩
abbrev S1x256 : Shape := ⟨2, ![1, 256]⟩
abbrev S1 : Shape := ⟨1, ![1]⟩
abbrev S16x256 : Shape := ⟨2, ![16, 256]⟩
abbrev S2000x256 : Shape := ⟨2, ![2000, 256]⟩
abbrev S2000 : Shape := ⟨1, ![2000]⟩
abbrev S2000x1 : Shape := ⟨2, ![2000, 1]⟩

abbrev nBuf : Space → Nat
  | .hbm => 48
  | .vmem => 26
  | .smem => 2
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000x17, .f32⟩
  | .hbm, ⟨3, _⟩ => ⟨S16x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S800000x1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S800000x1, .f32⟩
  | .hbm, ⟨24, _⟩ => ⟨S800000x1, .f32⟩
  | .hbm, ⟨25, _⟩ => ⟨S_, .f32⟩
  | .hbm, ⟨26, _⟩ => ⟨S800000x1, .f32⟩
  | .hbm, ⟨27, _⟩ => ⟨S800000x1, .f32⟩
  | .hbm, ⟨28, _⟩ => ⟨S800000x16, .f32⟩
  | .hbm, ⟨29, _⟩ => ⟨S_, .i32⟩
  | .hbm, ⟨30, _⟩ => ⟨S_, .i32⟩
  | .hbm, ⟨31, _⟩ => ⟨S800768, .i32⟩
  | .hbm, ⟨32, _⟩ => ⟨S_, .i32⟩
  | .hbm, ⟨33, _⟩ => ⟨S_, .f32⟩
  | .hbm, ⟨34, _⟩ => ⟨S800768x16, .f32⟩
  | .hbm, ⟨35, _⟩ => ⟨S_, .i32⟩
  | .hbm, ⟨36, _⟩ => ⟨S_, .f32⟩
  | .hbm, ⟨37, _⟩ => ⟨S800768x1, .f32⟩
  | .hbm, ⟨38, _⟩ => ⟨S_, .i32⟩
  | .hbm, ⟨39, _⟩ => ⟨S_, .i32⟩
  | .hbm, ⟨40, _⟩ => ⟨S800768, .i32⟩
  | .hbm, ⟨41, _⟩ => ⟨S800768x256, .bf16⟩
  | .hbm, ⟨42, _⟩ => ⟨S800768x256, .f32⟩
  | .hbm, ⟨43, _⟩ => ⟨S_, .f32⟩
  | .hbm, ⟨44, _⟩ => ⟨S50000x256, .f32⟩
  | .hbm, ⟨45, _⟩ => ⟨S800768x1, .i32⟩
  | .hbm, ⟨46, _⟩ => ⟨S50000x256, .f32⟩
  | .hbm, ⟨47, _⟩ => ⟨S50000x256, .f32⟩
  | .local _ .vmem, ⟨0, _⟩ => ⟨S1024x16, .f32⟩
  | .local _ .vmem, ⟨1, _⟩ => ⟨S1024x16, .f32⟩
  | .local _ .vmem, ⟨2, _⟩ => ⟨S1024x1, .f32⟩
  | .local _ .vmem, ⟨3, _⟩ => ⟨S1024x1, .f32⟩
  | .local _ .vmem, ⟨4, _⟩ => ⟨S16x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S128x256, .f32⟩
  | .local _ .vmem, ⟨9, _⟩ => ⟨S256, .f32⟩
  | .local _ .vmem, ⟨10, _⟩ => ⟨S1024x256, .bf16⟩
  | .local _ .vmem, ⟨11, _⟩ => ⟨S1024x256, .bf16⟩
  | .local _ .vmem, ⟨12, _⟩ => ⟨S50000x256, .f32⟩
  | .local _ .vmem, ⟨13, _⟩ => ⟨S1024x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S256x256, .f32⟩
  | .local _ .vmem, ⟨19, _⟩ => ⟨S256, .f32⟩
  | .local _ .vmem, ⟨20, _⟩ => ⟨S256, .f32⟩
  | .local _ .vmem, ⟨21, _⟩ => ⟨S256, .f32⟩
  | .local _ .vmem, ⟨22, _⟩ => ⟨S256x256, .f32⟩
  | .local _ .vmem, ⟨23, _⟩ => ⟨S256, .f32⟩
  | .local _ .vmem, ⟨24, _⟩ => ⟨S2000x256, .f32⟩
  | .local _ .vmem, ⟨25, _⟩ => ⟨S2000x256, .f32⟩
  | .local _ .smem, ⟨0, _⟩ => ⟨S1024, .i32⟩
  | .local _ .smem, ⟨1, _⟩ => ⟨S1024, .i32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v5 : Ref sig .tc := ⟨.hbm, 27, rfl⟩
abbrev main_v6 : Ref sig .tc := ⟨.hbm, 28, rfl⟩
abbrev main_c : Ref sig .tc := ⟨.hbm, 29, rfl⟩
abbrev main_call1_v0 : Ref sig .tc := ⟨.hbm, 30, rfl⟩
abbrev main_v7 : Ref sig .tc := ⟨.hbm, 31, rfl⟩
abbrev main_c_1 : Ref sig .tc := ⟨.hbm, 32, rfl⟩
abbrev main_call2_v0 : Ref sig .tc := ⟨.hbm, 33, rfl⟩
abbrev main_v8 : Ref sig .tc := ⟨.hbm, 34, rfl⟩
abbrev main_c_2 : Ref sig .tc := ⟨.hbm, 35, rfl⟩
abbrev main_call3_v0 : Ref sig .tc := ⟨.hbm, 36, rfl⟩
abbrev main_v9 : Ref sig .tc := ⟨.hbm, 37, rfl⟩
abbrev main_c_3 : Ref sig .tc := ⟨.hbm, 38, rfl⟩
abbrev main_call4_v0 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_cst_4 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch2 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc0_stg2_0 : Ref sig .tc := ⟨.smem, 0, rfl⟩
abbrev cc0_stg2_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem8_1 : DmaSem sig := 26

abbrev nD : Nat := 1
abbrev τ : Topo := Topo.v7x

variable {F : FTy → Type} [FloatOps F]

abbrev grid0 : Pipeline.Grid := ⟨2, ![2, 391], ![false, false]⟩

@[reducible] def k0_t1_loop : Scf.Loop 32 :=
  let c0_i32_19 : BitVec 32 := 0#32
  let c64_i32 : BitVec 32 := 64#32
  let v34 : BitVec 32 := Scalar.addi c0_i32_19 c64_i32
  let c1_i32 : BitVec 32 := 1#32
  ⟨c0_i32_19, v34, c1_i32⟩
def k0_mult1 (k0_t1 : Fin k0_t1_loop.trips) : BitVec 32 :=
  let c0_i32_22 : BitVec 32 := 0#32
  let c0_i32_19 : BitVec 32 := 0#32
  let c1_i32 : BitVec 32 := 1#32
  let arg16 : BitVec 32 := Scf.iv c0_i32_19 c1_i32 k0_t1
  let c1_i32_21 : BitVec 32 := 1#32
  let v35 : BitVec 32 := Scalar.muli arg16 c1_i32_21
  let v36 : BitVec 32 := Scalar.addi c0_i32_22 v35
  let c16_i32 : BitVec 32 := 16#32
  let v37 : BitVec 32 := Scalar.muli v36 c16_i32
  v37
def k0_off1 (k0_t1 : Fin k0_t1_loop.trips) : Fin 1 → Nat :=
  let c0_i32_22 : BitVec 32 := 0#32
  let c0_i32_19 : BitVec 32 := 0#32
  let c1_i32 : BitVec 32 := 1#32
  let arg16 : BitVec 32 := Scf.iv c0_i32_19 c1_i32 k0_t1
  let c1_i32_21 : BitVec 32 := 1#32
  let v35 : BitVec 32 := Scalar.muli arg16 c1_i32_21
  let v36 : BitVec 32 := Scalar.addi c0_i32_22 v35
  let c16_i32 : BitVec 32 := 16#32
  let v37 : BitVec 32 := Scalar.muli v36 c16_i32
  let v38 : BitVec 32 := v37
  let c0_i32_23 : BitVec 32 := 0#32
  let v39 : BitVec 32 := Scalar.addi v38 c0_i32_23
  let v40 : Index := Scalar.indexCast v39
  ![v40.toNat]
def k0_off2 (v41 : BitVec 32) : Fin 2 → Nat :=
  let v42 : Index := Scalar.indexCast v41
  let c0_24 : Index := 0#32
  ![v42.toNat, 0]

def k0_chk1 (v41 : BitVec 32) : Prop :=
  (∀ a, (k0_off2 v41) a + S1x256.size a ≤ S50000x256.size a)
instance k0_chk1.dec : ∀ (v41 : BitVec 32), Decidable (k0_chk1 v41) := fun v41 => decidable_of_iff' _ (Iff.of_eq (k0_chk1.eq_1 v41))
theorem k0_off2_inb : ∀ (v41 : BitVec 32) (k0_hw1 : k0_chk1 v41), ∀ a, (k0_off2 v41) a + S1x256.size a ≤ S50000x256.size a := fun v41 k0_hw1 => k0_hw1

def k0_off3 (k0_t1 : Fin k0_t1_loop.trips) : Fin 2 → Nat :=
  let c0_i32_22 : BitVec 32 := 0#32
  let c0_i32_19 : BitVec 32 := 0#32
  let c1_i32 : BitVec 32 := 1#32
  let arg16 : BitVec 32 := Scf.iv c0_i32_19 c1_i32 k0_t1
  let c1_i32_21 : BitVec 32 := 1#32
  let v35 : BitVec 32 := Scalar.muli arg16 c1_i32_21
  let v36 : BitVec 32 := Scalar.addi c0_i32_22 v35
  let c16_i32 : BitVec 32 := 16#32
  let v37 : BitVec 32 := Scalar.muli v36 c16_i32
  let v38 : BitVec 32 := v37
  let c0_i32_25 : BitVec 32 := 0#32
  let v44 : BitVec 32 := Scalar.addi v38 c0_i32_25
  let v45 : Index := Scalar.indexCast v44
  let c0_26 : Index := 0#32
  ![v45.toNat, 0]
def k0_off4 (k0_t1 : Fin k0_t1_loop.trips) : Fin 1 → Nat :=
  let c0_i32_22 : BitVec 32 := 0#32
  let c0_i32_19 : BitVec 32 := 0#32
  let c1_i32 : BitVec 32 := 1#32
  let arg16 : BitVec 32 := Scf.iv c0_i32_19 c1_i32 k0_t1
  let c1_i32_21 : BitVec 32 := 1#32
  let v35 : BitVec 32 := Scalar.muli arg16 c1_i32_21
  let v36 : BitVec 32 := Scalar.addi c0_i32_22 v35
  let c16_i32 : BitVec 32 := 16#32
  let v37 : BitVec 32 := Scalar.muli v36 c16_i32
  let v38 : BitVec 32 := v37
  let c1_i32_28 : BitVec 32 := 1#32
  let v50 : BitVec 32 := Scalar.addi v38 c1_i32_28
  let v51 : Index := Scalar.indexCast v50
  ![v51.toNat]
def k0_off5 (v52 : BitVec 32) : Fin 2 → Nat :=
  let v53 : Index := Scalar.indexCast v52
  let c0_29 : Index := 0#32
  ![v53.toNat, 0]

def k0_chk2 (v52 : BitVec 32) : Prop :=
  (∀ a, (k0_off5 v52) a + S1x256.size a ≤ S50000x256.size a)
instance k0_chk2.dec : ∀ (v52 : BitVec 32), Decidable (k0_chk2 v52) := fun v52 => decidable_of_iff' _ (Iff.of_eq (k0_chk2.eq_1 v52))
theorem k0_off5_inb : ∀ (v52 : BitVec 32) (k0_hw2 : k0_chk2 v52), ∀ a, (k0_off5 v52) a + S1x256.size a ≤ S50000x256.size a := fun v52 k0_hw2 => k0_hw2

def k0_off6 (k0_t1 : Fin k0_t1_loop.trips) : Fin 2 → Nat :=
  let c0_i32_22 : BitVec 32 := 0#32
  let c0_i32_19 : BitVec 32 := 0#32
  let c1_i32 : BitVec 32 := 1#32
  let arg16 : BitVec 32 := Scf.iv c0_i32_19 c1_i32 k0_t1
  let c1_i32_21 : BitVec 32 := 1#32
  let v35 : BitVec 32 := Scalar.muli arg16 c1_i32_21
  let v36 : BitVec 32 := Scalar.addi c0_i32_22 v35
  let c16_i32 : BitVec 32 := 16#32
  let v37 : BitVec 32 := Scalar.muli v36 c16_i32
  let v38 : BitVec 32 := v37
  let c1_i32_30 : BitVec 32 := 1#32
  let v55 : BitVec 32 := Scalar.addi v38 c1_i32_30
  let v56 : Index := Scalar.indexCast v55
  let c0_31 : Index := 0#32
  ![v56.toNat, 0]
def k0_off7 (k0_t1 : Fin k0_t1_loop.trips) : Fin 1 → Nat :=
  let c0_i32_22 : BitVec 32 := 0#32
  let c0_i32_19 : BitVec 32 := 0#32
  let c1_i32 : BitVec 32 := 1#32
  let arg16 : BitVec 32 := Scf.iv c0_i32_19 c1_i32 k0_t1
  let c1_i32_21 : BitVec 32 := 1#32
  let v35 : BitVec 32 := Scalar.muli arg16 c1_i32_21
  let v36 : BitVec 32 := Scalar.addi c0_i32_22 v35
  let c16_i32 : BitVec 32 := 16#32
  let v37 : BitVec 32 := Scalar.muli v36 c16_i32
  let v38 : BitVec 32 := v37
  let c2_i32 : BitVec 32 := 2#32
  let v61 : BitVec 32 := Scalar.addi v38 c2_i32
  let v62 : Index := Scalar.indexCast v61
  ![v62.toNat]
def k0_off8 (v63 : BitVec 32) : Fin 2 → Nat :=
  let v64 : Index := Scalar.indexCast v63
  let c0_33 : Index := 0#32
  ![v64.toNat, 0]

def k0_chk3 (v63 : BitVec 32) : Prop :=
  (∀ a, (k0_off8 v63) a + S1x256.size a ≤ S50000x256.size a)
instance k0_chk3.dec : ∀ (v63 : BitVec 32), Decidable (k0_chk3 v63) := fun v63 => decidable_of_iff' _ (Iff.of_eq (k0_chk3.eq_1 v63))
theorem k0_off8_inb : ∀ (v63 : BitVec 32) (k0_hw3 : k0_chk3 v63), ∀ a, (k0_off8 v63) a + S1x256.size a ≤ S50000x256.size a := fun v63 k0_hw3 => k0_hw3

def k0_off9 (k0_t1 : Fin k0_t1_loop.trips) : Fin 2 → Nat :=
  let c0_i32_22 : BitVec 32 := 0#32
  let c0_i32_19 : BitVec 32 := 0#32
  let c1_i32 : BitVec 32 := 1#32
  let arg16 : BitVec 32 := Scf.iv c0_i32_19 c1_i32 k0_t1
  let c1_i32_21 : BitVec 32 := 1#32
  let v35 : BitVec 32 := Scalar.muli arg16 c1_i32_21
  let v36 : BitVec 32 := Scalar.addi c0_i32_22 v35
  let c16_i32 : BitVec 32 := 16#32
  let v37 : BitVec 32 := Scalar.muli v36 c16_i32
  let v38 : BitVec 32 := v37
  let c2_i32_34 : BitVec 32 := 2#32
  let v66 : BitVec 32 := Scalar.addi v38 c2_i32_34
  let v67 : Index := Scalar.indexCast v66
  let c0_35 : Index := 0#32
  ![v67.toNat, 0]
def k0_off10 (k0_t1 : Fin k0_t1_loop.trips) : Fin 1 → Nat :=
  let c0_i32_22 : BitVec 32 := 0#32
  let c0_i32_19 : BitVec 32 := 0#32
  let c1_i32 : BitVec 32 := 1#32
  let arg16 : BitVec 32 := Scf.iv c0_i32_19 c1_i32 k0_t1
  let c1_i32_21 : BitVec 32 := 1#32
  let v35 : BitVec 32 := Scalar.muli arg16 c1_i32_21
  let v36 : BitVec 32 := Scalar.addi c0_i32_22 v35
  let c16_i32 : BitVec 32 := 16#32
  let v37 : BitVec 32 := Scalar.muli v36 c16_i32
  let v38 : BitVec 32 := v37
  let c3_i32 : BitVec 32 := 3#32
  let v72 : BitVec 32 := Scalar.addi v38 c3_i32
  let v73 : Index := Scalar.indexCast v72
  ![v73.toNat]
def k0_off11 (v74 : BitVec 32) : Fin 2 → Nat :=
  let v75 : Index := Scalar.indexCast v74
  let c0_37 : Index := 0#32
  ![v75.toNat, 0]

def k0_chk4 (v74 : BitVec 32) : Prop :=
  (∀ a, (k0_off11 v74) a + S1x256.size a ≤ S50000x256.size a)
instance k0_chk4.dec : ∀ (v74 : BitVec 32), Decidable (k0_chk4 v74) := fun v74 => decidable_of_iff' _ (Iff.of_eq (k0_chk4.eq_1 v74))
theorem k0_off11_inb : ∀ (v74 : BitVec 32) (k0_hw4 : k0_chk4 v74), ∀ a, (k0_off11 v74) a + S1x256.size a ≤ S50000x256.size a := fun v74 k0_hw4 => k0_hw4

def k0_off12 (k0_t1 : Fin k0_t1_loop.trips) : Fin 2 → Nat :=
  let c0_i32_22 : BitVec 32 := 0#32
  let c0_i32_19 : BitVec 32 := 0#32
  let c1_i32 : BitVec 32 := 1#32
  let arg16 : BitVec 32 := Scf.iv c0_i32_19 c1_i32 k0_t1
  let c1_i32_21 : BitVec 32 := 1#32
  let v35 : BitVec 32 := Scalar.muli arg16 c1_i32_21
  let v36 : BitVec 32 := Scalar.addi c0_i32_22 v35
  let c16_i32 : BitVec 32 := 16#32
  let v37 : BitVec 32 := Scalar.muli v36 c16_i32
  let v38 : BitVec 32 := v37
  let c3_i32_38 : BitVec 32 := 3#32
  let v77 : BitVec 32 := Scalar.addi v38 c3_i32_38
  let v78 : Index := Scalar.indexCast v77
  let c0_39 : Index := 0#32
  ![v78.toNat, 0]
def k0_off13 (k0_t1 : Fin k0_t1_loop.trips) : Fin 1 → Nat :=
  let c0_i32_22 : BitVec 32 := 0#32
  let c0_i32_19 : BitVec 32 := 0#32
  let c1_i32 : BitVec 32 := 1#32
  let arg16 : BitVec 32 := Scf.iv c0_i32_19 c1_i32 k0_t1
  let c1_i32_21 : BitVec 32 := 1#32
  let v35 : BitVec 32 := Scalar.muli arg16 c1_i32_21
  let v36 : BitVec 32 := Scalar.addi c0_i32_22 v35
  let c16_i32 : BitVec 32 := 16#32
  let v37 : BitVec 32 := Scalar.muli v36 c16_i32
  let v38 : BitVec 32 := v37
  let c4_i32 : BitVec 32 := 4#32
  let v83 : BitVec 32 := Scalar.addi v38 c4_i32
  let v84 : Index := Scalar.indexCast v83
  ![v84.toNat]
def k0_off14 (v85 : BitVec 32) : Fin 2 → Nat :=
  let v86 : Index := Scalar.indexCast v85
  let c0_41 : Index := 0#32
  ![v86.toNat, 0]

def k0_chk5 (v85 : BitVec 32) : Prop :=
  (∀ a, (k0_off14 v85) a + S1x256.size a ≤ S50000x256.size a)
instance k0_chk5.dec : ∀ (v85 : BitVec 32), Decidable (k0_chk5 v85) := fun v85 => decidable_of_iff' _ (Iff.of_eq (k0_chk5.eq_1 v85))
theorem k0_off14_inb : ∀ (v85 : BitVec 32) (k0_hw5 : k0_chk5 v85), ∀ a, (k0_off14 v85) a + S1x256.size a ≤ S50000x256.size a := fun v85 k0_hw5 => k0_hw5

def k0_off15 (k0_t1 : Fin k0_t1_loop.trips) : Fin 2 → Nat :=
  let c0_i32_22 : BitVec 32 := 0#32
  let c0_i32_19 : BitVec 32 := 0#32
  let c1_i32 : BitVec 32 := 1#32
  let arg16 : BitVec 32 := Scf.iv c0_i32_19 c1_i32 k0_t1
  let c1_i32_21 : BitVec 32 := 1#32
  let v35 : BitVec 32 := Scalar.muli arg16 c1_i32_21
  let v36 : BitVec 32 := Scalar.addi c0_i32_22 v35
  let c16_i32 : BitVec 32 := 16#32
  let v37 : BitVec 32 := Scalar.muli v36 c16_i32
  let v38 : BitVec 32 := v37
  let c4_i32_42 : BitVec 32 := 4#32
  let v88 : BitVec 32 := Scalar.addi v38 c4_i32_42
  let v89 : Index := Scalar.indexCast v88
  let c0_43 : Index := 0#32
  ![v89.toNat, 0]
def k0_off16 (k0_t1 : Fin k0_t1_loop.trips) : Fin 1 → Nat :=
  let c0_i32_22 : BitVec 32 := 0#32
  let c0_i32_19 : BitVec 32 := 0#32
  let c1_i32 : BitVec 32 := 1#32
  let arg16 : BitVec 32 := Scf.iv c0_i32_19 c1_i32 k0_t1
  let c1_i32_21 : BitVec 32 := 1#32
  let v35 : BitVec 32 := Scalar.muli arg16 c1_i32_21
  let v36 : BitVec 32 := Scalar.addi c0_i32_22 v35
  let c16_i32 : BitVec 32 := 16#32
  let v37 : BitVec 32 := Scalar.muli v36 c16_i32
  let v38 : BitVec 32 := v37
  let c5_i32 : BitVec 32 := 5#32
  let v94 : BitVec 32 := Scalar.addi v38 c5_i32
  let v95 : Index := Scalar.indexCast v94
  ![v95.toNat]
def k0_off17 (v96 : BitVec 32) : Fin 2 → Nat :=
  let v97 : Index := Scalar.indexCast v96
  let c0_45 : Index := 0#32
  ![v97.toNat, 0]

def k0_chk6 (v96 : BitVec 32) : Prop :=
  (∀ a, (k0_off17 v96) a + S1x256.size a ≤ S50000x256.size a)
instance k0_chk6.dec : ∀ (v96 : BitVec 32), Decidable (k0_chk6 v96) := fun v96 => decidable_of_iff' _ (Iff.of_eq (k0_chk6.eq_1 v96))
theorem k0_off17_inb : ∀ (v96 : BitVec 32) (k0_hw6 : k0_chk6 v96), ∀ a, (k0_off17 v96) a + S1x256.size a ≤ S50000x256.size a := fun v96 k0_hw6 => k0_hw6

def k0_off18 (k0_t1 : Fin k0_t1_loop.trips) : Fin 2 → Nat :=
  let c0_i32_22 : BitVec 32 := 0#32
  let c0_i32_19 : BitVec 32 := 0#32
  let c1_i32 : BitVec 32 := 1#32
  let arg16 : BitVec 32 := Scf.iv c0_i32_19 c1_i32 k0_t1
  let c1_i32_21 : BitVec 32 := 1#32
  let v35 : BitVec 32 := Scalar.muli arg16 c1_i32_21
  let v36 : BitVec 32 := Scalar.addi c0_i32_22 v35
  let c16_i32 : BitVec 32 := 16#32
  let v37 : BitVec 32 := Scalar.muli v36 c16_i32
  let v38 : BitVec 32 := v37
  let c5_i32_46 : BitVec 32 := 5#32
  let v99 : BitVec 32 := Scalar.addi v38 c5_i32_46
  let v100 : Index := Scalar.indexCast v99
  let c0_47 : Index := 0#32
  ![v100.toNat, 0]
def k0_off19 (k0_t1 : Fin k0_t1_loop.trips) : Fin 1 → Nat :=
  let c0_i32_22 : BitVec 32 := 0#32
  let c0_i32_19 : BitVec 32 := 0#32
  let c1_i32 : BitVec 32 := 1#32
  let arg16 : BitVec 32 := Scf.iv c0_i32_19 c1_i32 k0_t1
  let c1_i32_21 : BitVec 32 := 1#32
  let v35 : BitVec 32 := Scalar.muli arg16 c1_i32_21
  let v36 : BitVec 32 := Scalar.addi c0_i32_22 v35
  let c16_i32 : BitVec 32 := 16#32
  let v37 : BitVec 32 := Scalar.muli v36 c16_i32
  let v38 : BitVec 32 := v37
  let c6_i32 : BitVec 32 := 6#32
  let v105 : BitVec 32 := Scalar.addi v38 c6_i32
  let v106 : Index := Scalar.indexCast v105
  ![v106.toNat]
def k0_off20 (v107 : BitVec 32) : Fin 2 → Nat :=
  let v108 : Index := Scalar.indexCast v107
  let c0_49 : Index := 0#32
  ![v108.toNat, 0]

def k0_chk7 (v107 : BitVec 32) : Prop :=
  (∀ a, (k0_off20 v107) a + S1x256.size a ≤ S50000x256.size a)
instance k0_chk7.dec : ∀ (v107 : BitVec 32), Decidable (k0_chk7 v107) := fun v107 => decidable_of_iff' _ (Iff.of_eq (k0_chk7.eq_1 v107))
theorem k0_off20_inb : ∀ (v107 : BitVec 32) (k0_hw7 : k0_chk7 v107), ∀ a, (k0_off20 v107) a + S1x256.size a ≤ S50000x256.size a := fun v107 k0_hw7 => k0_hw7

def k0_off21 (k0_t1 : Fin k0_t1_loop.trips) : Fin 2 → Nat :=
  let c0_i32_22 : BitVec 32 := 0#32
  let c0_i32_19 : BitVec 32 := 0#32
  let c1_i32 : BitVec 32 := 1#32
  let arg16 : BitVec 32 := Scf.iv c0_i32_19 c1_i32 k0_t1
  let c1_i32_21 : BitVec 32 := 1#32
  let v35 : BitVec 32 := Scalar.muli arg16 c1_i32_21
  let v36 : BitVec 32 := Scalar.addi c0_i32_22 v35
  let c16_i32 : BitVec 32 := 16#32
  let v37 : BitVec 32 := Scalar.muli v36 c16_i32
  let v38 : BitVec 32 := v37
  let c6_i32_50 : BitVec 32 := 6#32
  let v110 : BitVec 32 := Scalar.addi v38 c6_i32_50
  let v111 : Index := Scalar.indexCast v110
  let c0_51 : Index := 0#32
  ![v111.toNat, 0]
def k0_off22 (k0_t1 : Fin k0_t1_loop.trips) : Fin 1 → Nat :=
  let c0_i32_22 : BitVec 32 := 0#32
  let c0_i32_19 : BitVec 32 := 0#32
  let c1_i32 : BitVec 32 := 1#32
  let arg16 : BitVec 32 := Scf.iv c0_i32_19 c1_i32 k0_t1
  let c1_i32_21 : BitVec 32 := 1#32
  let v35 : BitVec 32 := Scalar.muli arg16 c1_i32_21
  let v36 : BitVec 32 := Scalar.addi c0_i32_22 v35
  let c16_i32 : BitVec 32 := 16#32
  let v37 : BitVec 32 := Scalar.muli v36 c16_i32
  let v38 : BitVec 32 := v37
  let c7_i32 : BitVec 32 := 7#32
  let v116 : BitVec 32 := Scalar.addi v38 c7_i32
  let v117 : Index := Scalar.indexCast v116
  ![v117.toNat]
def k0_off23 (v118 : BitVec 32) : Fin 2 → Nat :=
  let v119 : Index := Scalar.indexCast v118
  let c0_53 : Index := 0#32
  ![v119.toNat, 0]

def k0_chk8 (v118 : BitVec 32) : Prop :=
  (∀ a, (k0_off23 v118) a + S1x256.size a ≤ S50000x256.size a)
instance k0_chk8.dec : ∀ (v118 : BitVec 32), Decidable (k0_chk8 v118) := fun v118 => decidable_of_iff' _ (Iff.of_eq (k0_chk8.eq_1 v118))
theorem k0_off23_inb : ∀ (v118 : BitVec 32) (k0_hw8 : k0_chk8 v118), ∀ a, (k0_off23 v118) a + S1x256.size a ≤ S50000x256.size a := fun v118 k0_hw8 => k0_hw8

def k0_off24 (k0_t1 : Fin k0_t1_loop.trips) : Fin 2 → Nat :=
  let c0_i32_22 : BitVec 32 := 0#32
  let c0_i32_19 : BitVec 32 := 0#32
  let c1_i32 : BitVec 32 := 1#32
  let arg16 : BitVec 32 := Scf.iv c0_i32_19 c1_i32 k0_t1
  let c1_i32_21 : BitVec 32 := 1#32
  let v35 : BitVec 32 := Scalar.muli arg16 c1_i32_21
  let v36 : BitVec 32 := Scalar.addi c0_i32_22 v35
  let c16_i32 : BitVec 32 := 16#32
  let v37 : BitVec 32 := Scalar.muli v36 c16_i32
  let v38 : BitVec 32 := v37
  let c7_i32_54 : BitVec 32 := 7#32
  let v121 : BitVec 32 := Scalar.addi v38 c7_i32_54
  let v122 : Index := Scalar.indexCast v121
  let c0_55 : Index := 0#32
  ![v122.toNat, 0]
def k0_off25 (k0_t1 : Fin k0_t1_loop.trips) : Fin 1 → Nat :=
  let c0_i32_22 : BitVec 32 := 0#32
  let c0_i32_19 : BitVec 32 := 0#32
  let c1_i32 : BitVec 32 := 1#32
  let arg16 : BitVec 32 := Scf.iv c0_i32_19 c1_i32 k0_t1
  let c1_i32_21 : BitVec 32 := 1#32
  let v35 : BitVec 32 := Scalar.muli arg16 c1_i32_21
  let v36 : BitVec 32 := Scalar.addi c0_i32_22 v35
  let c16_i32 : BitVec 32 := 16#32
  let v37 : BitVec 32 := Scalar.muli v36 c16_i32
  let v38 : BitVec 32 := v37
  let c8_i32 : BitVec 32 := 8#32
  let v127 : BitVec 32 := Scalar.addi v38 c8_i32
  let v128 : Index := Scalar.indexCast v127
  ![v128.toNat]
def k0_off26 (v129 : BitVec 32) : Fin 2 → Nat :=
  let v130 : Index := Scalar.indexCast v129
  let c0_57 : Index := 0#32
  ![v130.toNat, 0]

def k0_chk9 (v129 : BitVec 32) : Prop :=
  (∀ a, (k0_off26 v129) a + S1x256.size a ≤ S50000x256.size a)
instance k0_chk9.dec : ∀ (v129 : BitVec 32), Decidable (k0_chk9 v129) := fun v129 => decidable_of_iff' _ (Iff.of_eq (k0_chk9.eq_1 v129))
theorem k0_off26_inb : ∀ (v129 : BitVec 32) (k0_hw9 : k0_chk9 v129), ∀ a, (k0_off26 v129) a + S1x256.size a ≤ S50000x256.size a := fun v129 k0_hw9 => k0_hw9

def k0_off27 (k0_t1 : Fin k0_t1_loop.trips) : Fin 2 → Nat :=
  let c0_i32_22 : BitVec 32 := 0#32
  let c0_i32_19 : BitVec 32 := 0#32
  let c1_i32 : BitVec 32 := 1#32
  let arg16 : BitVec 32 := Scf.iv c0_i32_19 c1_i32 k0_t1
  let c1_i32_21 : BitVec 32 := 1#32
  let v35 : BitVec 32 := Scalar.muli arg16 c1_i32_21
  let v36 : BitVec 32 := Scalar.addi c0_i32_22 v35
  let c16_i32 : BitVec 32 := 16#32
  let v37 : BitVec 32 := Scalar.muli v36 c16_i32
  let v38 : BitVec 32 := v37
  let c8_i32_58 : BitVec 32 := 8#32
  let v132 : BitVec 32 := Scalar.addi v38 c8_i32_58
  let v133 : Index := Scalar.indexCast v132
  let c0_59 : Index := 0#32
  ![v133.toNat, 0]
def k0_off28 (k0_t1 : Fin k0_t1_loop.trips) : Fin 1 → Nat :=
  let c0_i32_22 : BitVec 32 := 0#32
  let c0_i32_19 : BitVec 32 := 0#32
  let c1_i32 : BitVec 32 := 1#32
  let arg16 : BitVec 32 := Scf.iv c0_i32_19 c1_i32 k0_t1
  let c1_i32_21 : BitVec 32 := 1#32
  let v35 : BitVec 32 := Scalar.muli arg16 c1_i32_21
  let v36 : BitVec 32 := Scalar.addi c0_i32_22 v35
  let c16_i32 : BitVec 32 := 16#32
  let v37 : BitVec 32 := Scalar.muli v36 c16_i32
  let v38 : BitVec 32 := v37
  let c9_i32 : BitVec 32 := 9#32
  let v138 : BitVec 32 := Scalar.addi v38 c9_i32
  let v139 : Index := Scalar.indexCast v138
  ![v139.toNat]
def k0_off29 (v140 : BitVec 32) : Fin 2 → Nat :=
  let v141 : Index := Scalar.indexCast v140
  let c0_61 : Index := 0#32
  ![v141.toNat, 0]

def k0_chk10 (v140 : BitVec 32) : Prop :=
  (∀ a, (k0_off29 v140) a + S1x256.size a ≤ S50000x256.size a)
instance k0_chk10.dec : ∀ (v140 : BitVec 32), Decidable (k0_chk10 v140) := fun v140 => decidable_of_iff' _ (Iff.of_eq (k0_chk10.eq_1 v140))
theorem k0_off29_inb : ∀ (v140 : BitVec 32) (k0_hw10 : k0_chk10 v140), ∀ a, (k0_off29 v140) a + S1x256.size a ≤ S50000x256.size a := fun v140 k0_hw10 => k0_hw10

def k0_off30 (k0_t1 : Fin k0_t1_loop.trips) : Fin 2 → Nat :=
  let c0_i32_22 : BitVec 32 := 0#32
  let c0_i32_19 : BitVec 32 := 0#32
  let c1_i32 : BitVec 32 := 1#32
  let arg16 : BitVec 32 := Scf.iv c0_i32_19 c1_i32 k0_t1
  let c1_i32_21 : BitVec 32 := 1#32
  let v35 : BitVec 32 := Scalar.muli arg16 c1_i32_21
  let v36 : BitVec 32 := Scalar.addi c0_i32_22 v35
  let c16_i32 : BitVec 32 := 16#32
  let v37 : BitVec 32 := Scalar.muli v36 c16_i32
  let v38 : BitVec 32 := v37
  let c9_i32_62 : BitVec 32 := 9#32
  let v143 : BitVec 32 := Scalar.addi v38 c9_i32_62
  let v144 : Index := Scalar.indexCast v143
  let c0_63 : Index := 0#32
  ![v144.toNat, 0]
def k0_off31 (k0_t1 : Fin k0_t1_loop.trips) : Fin 1 → Nat :=
  let c0_i32_22 : BitVec 32 := 0#32
  let c0_i32_19 : BitVec 32 := 0#32
  let c1_i32 : BitVec 32 := 1#32
  let arg16 : BitVec 32 := Scf.iv c0_i32_19 c1_i32 k0_t1
  let c1_i32_21 : BitVec 32 := 1#32
  let v35 : BitVec 32 := Scalar.muli arg16 c1_i32_21
  let v36 : BitVec 32 := Scalar.addi c0_i32_22 v35
  let c16_i32 : BitVec 32 := 16#32
  let v37 : BitVec 32 := Scalar.muli v36 c16_i32
  let v38 : BitVec 32 := v37
  let c10_i32 : BitVec 32 := 10#32
  let v149 : BitVec 32 := Scalar.addi v38 c10_i32
  let v150 : Index := Scalar.indexCast v149
  ![v150.toNat]
def k0_off32 (v151 : BitVec 32) : Fin 2 → Nat :=
  let v152 : Index := Scalar.indexCast v151
  let c0_65 : Index := 0#32
  ![v152.toNat, 0]

def k0_chk11 (v151 : BitVec 32) : Prop :=
  (∀ a, (k0_off32 v151) a + S1x256.size a ≤ S50000x256.size a)
instance k0_chk11.dec : ∀ (v151 : BitVec 32), Decidable (k0_chk11 v151) := fun v151 => decidable_of_iff' _ (Iff.of_eq (k0_chk11.eq_1 v151))
theorem k0_off32_inb : ∀ (v151 : BitVec 32) (k0_hw11 : k0_chk11 v151), ∀ a, (k0_off32 v151) a + S1x256.size a ≤ S50000x256.size a := fun v151 k0_hw11 => k0_hw11

def k0_off33 (k0_t1 : Fin k0_t1_loop.trips) : Fin 2 → Nat :=
  let c0_i32_22 : BitVec 32 := 0#32
  let c0_i32_19 : BitVec 32 := 0#32
  let c1_i32 : BitVec 32 := 1#32
  let arg16 : BitVec 32 := Scf.iv c0_i32_19 c1_i32 k0_t1
  let c1_i32_21 : BitVec 32 := 1#32
  let v35 : BitVec 32 := Scalar.muli arg16 c1_i32_21
  let v36 : BitVec 32 := Scalar.addi c0_i32_22 v35
  let c16_i32 : BitVec 32 := 16#32
  let v37 : BitVec 32 := Scalar.muli v36 c16_i32
  let v38 : BitVec 32 := v37
  let c10_i32_66 : BitVec 32 := 10#32
  let v154 : BitVec 32 := Scalar.addi v38 c10_i32_66
  let v155 : Index := Scalar.indexCast v154
  let c0_67 : Index := 0#32
  ![v155.toNat, 0]
def k0_off34 (k0_t1 : Fin k0_t1_loop.trips) : Fin 1 → Nat :=
  let c0_i32_22 : BitVec 32 := 0#32
  let c0_i32_19 : BitVec 32 := 0#32
  let c1_i32 : BitVec 32 := 1#32
  let arg16 : BitVec 32 := Scf.iv c0_i32_19 c1_i32 k0_t1
  let c1_i32_21 : BitVec 32 := 1#32
  let v35 : BitVec 32 := Scalar.muli arg16 c1_i32_21
  let v36 : BitVec 32 := Scalar.addi c0_i32_22 v35
  let c16_i32 : BitVec 32 := 16#32
  let v37 : BitVec 32 := Scalar.muli v36 c16_i32
  let v38 : BitVec 32 := v37
  let c11_i32 : BitVec 32 := 11#32
  let v160 : BitVec 32 := Scalar.addi v38 c11_i32
  let v161 : Index := Scalar.indexCast v160
  ![v161.toNat]
def k0_off35 (v162 : BitVec 32) : Fin 2 → Nat :=
  let v163 : Index := Scalar.indexCast v162
  let c0_69 : Index := 0#32
  ![v163.toNat, 0]

def k0_chk12 (v162 : BitVec 32) : Prop :=
  (∀ a, (k0_off35 v162) a + S1x256.size a ≤ S50000x256.size a)
instance k0_chk12.dec : ∀ (v162 : BitVec 32), Decidable (k0_chk12 v162) := fun v162 => decidable_of_iff' _ (Iff.of_eq (k0_chk12.eq_1 v162))
theorem k0_off35_inb : ∀ (v162 : BitVec 32) (k0_hw12 : k0_chk12 v162), ∀ a, (k0_off35 v162) a + S1x256.size a ≤ S50000x256.size a := fun v162 k0_hw12 => k0_hw12

def k0_off36 (k0_t1 : Fin k0_t1_loop.trips) : Fin 2 → Nat :=
  let c0_i32_22 : BitVec 32 := 0#32
  let c0_i32_19 : BitVec 32 := 0#32
  let c1_i32 : BitVec 32 := 1#32
  let arg16 : BitVec 32 := Scf.iv c0_i32_19 c1_i32 k0_t1
  let c1_i32_21 : BitVec 32 := 1#32
  let v35 : BitVec 32 := Scalar.muli arg16 c1_i32_21
  let v36 : BitVec 32 := Scalar.addi c0_i32_22 v35
  let c16_i32 : BitVec 32 := 16#32
  let v37 : BitVec 32 := Scalar.muli v36 c16_i32
  let v38 : BitVec 32 := v37
  let c11_i32_70 : BitVec 32 := 11#32
  let v165 : BitVec 32 := Scalar.addi v38 c11_i32_70
  let v166 : Index := Scalar.indexCast v165
  let c0_71 : Index := 0#32
  ![v166.toNat, 0]
def k0_off37 (k0_t1 : Fin k0_t1_loop.trips) : Fin 1 → Nat :=
  let c0_i32_22 : BitVec 32 := 0#32
  let c0_i32_19 : BitVec 32 := 0#32
  let c1_i32 : BitVec 32 := 1#32
  let arg16 : BitVec 32 := Scf.iv c0_i32_19 c1_i32 k0_t1
  let c1_i32_21 : BitVec 32 := 1#32
  let v35 : BitVec 32 := Scalar.muli arg16 c1_i32_21
  let v36 : BitVec 32 := Scalar.addi c0_i32_22 v35
  let c16_i32 : BitVec 32 := 16#32
  let v37 : BitVec 32 := Scalar.muli v36 c16_i32
  let v38 : BitVec 32 := v37
  let c12_i32 : BitVec 32 := 12#32
  let v171 : BitVec 32 := Scalar.addi v38 c12_i32
  let v172 : Index := Scalar.indexCast v171
  ![v172.toNat]
def k0_off38 (v173 : BitVec 32) : Fin 2 → Nat :=
  let v174 : Index := Scalar.indexCast v173
  let c0_73 : Index := 0#32
  ![v174.toNat, 0]

def k0_chk13 (v173 : BitVec 32) : Prop :=
  (∀ a, (k0_off38 v173) a + S1x256.size a ≤ S50000x256.size a)
instance k0_chk13.dec : ∀ (v173 : BitVec 32), Decidable (k0_chk13 v173) := fun v173 => decidable_of_iff' _ (Iff.of_eq (k0_chk13.eq_1 v173))
theorem k0_off38_inb : ∀ (v173 : BitVec 32) (k0_hw13 : k0_chk13 v173), ∀ a, (k0_off38 v173) a + S1x256.size a ≤ S50000x256.size a := fun v173 k0_hw13 => k0_hw13

def k0_off39 (k0_t1 : Fin k0_t1_loop.trips) : Fin 2 → Nat :=
  let c0_i32_22 : BitVec 32 := 0#32
  let c0_i32_19 : BitVec 32 := 0#32
  let c1_i32 : BitVec 32 := 1#32
  let arg16 : BitVec 32 := Scf.iv c0_i32_19 c1_i32 k0_t1
  let c1_i32_21 : BitVec 32 := 1#32
  let v35 : BitVec 32 := Scalar.muli arg16 c1_i32_21
  let v36 : BitVec 32 := Scalar.addi c0_i32_22 v35
  let c16_i32 : BitVec 32 := 16#32
  let v37 : BitVec 32 := Scalar.muli v36 c16_i32
  let v38 : BitVec 32 := v37
  let c12_i32_74 : BitVec 32 := 12#32
  let v176 : BitVec 32 := Scalar.addi v38 c12_i32_74
  let v177 : Index := Scalar.indexCast v176
  let c0_75 : Index := 0#32
  ![v177.toNat, 0]
def k0_off40 (k0_t1 : Fin k0_t1_loop.trips) : Fin 1 → Nat :=
  let c0_i32_22 : BitVec 32 := 0#32
  let c0_i32_19 : BitVec 32 := 0#32
  let c1_i32 : BitVec 32 := 1#32
  let arg16 : BitVec 32 := Scf.iv c0_i32_19 c1_i32 k0_t1
  let c1_i32_21 : BitVec 32 := 1#32
  let v35 : BitVec 32 := Scalar.muli arg16 c1_i32_21
  let v36 : BitVec 32 := Scalar.addi c0_i32_22 v35
  let c16_i32 : BitVec 32 := 16#32
  let v37 : BitVec 32 := Scalar.muli v36 c16_i32
  let v38 : BitVec 32 := v37
  let c13_i32 : BitVec 32 := 13#32
  let v182 : BitVec 32 := Scalar.addi v38 c13_i32
  let v183 : Index := Scalar.indexCast v182
  ![v183.toNat]
def k0_off41 (v184 : BitVec 32) : Fin 2 → Nat :=
  let v185 : Index := Scalar.indexCast v184
  let c0_77 : Index := 0#32
  ![v185.toNat, 0]

def k0_chk14 (v184 : BitVec 32) : Prop :=
  (∀ a, (k0_off41 v184) a + S1x256.size a ≤ S50000x256.size a)
instance k0_chk14.dec : ∀ (v184 : BitVec 32), Decidable (k0_chk14 v184) := fun v184 => decidable_of_iff' _ (Iff.of_eq (k0_chk14.eq_1 v184))
theorem k0_off41_inb : ∀ (v184 : BitVec 32) (k0_hw14 : k0_chk14 v184), ∀ a, (k0_off41 v184) a + S1x256.size a ≤ S50000x256.size a := fun v184 k0_hw14 => k0_hw14

def k0_off42 (k0_t1 : Fin k0_t1_loop.trips) : Fin 2 → Nat :=
  let c0_i32_22 : BitVec 32 := 0#32
  let c0_i32_19 : BitVec 32 := 0#32
  let c1_i32 : BitVec 32 := 1#32
  let arg16 : BitVec 32 := Scf.iv c0_i32_19 c1_i32 k0_t1
  let c1_i32_21 : BitVec 32 := 1#32
  let v35 : BitVec 32 := Scalar.muli arg16 c1_i32_21
  let v36 : BitVec 32 := Scalar.addi c0_i32_22 v35
  let c16_i32 : BitVec 32 := 16#32
  let v37 : BitVec 32 := Scalar.muli v36 c16_i32
  let v38 : BitVec 32 := v37
  let c13_i32_78 : BitVec 32 := 13#32
  let v187 : BitVec 32 := Scalar.addi v38 c13_i32_78
  let v188 : Index := Scalar.indexCast v187
  let c0_79 : Index := 0#32
  ![v188.toNat, 0]
def k0_off43 (k0_t1 : Fin k0_t1_loop.trips) : Fin 1 → Nat :=
  let c0_i32_22 : BitVec 32 := 0#32
  let c0_i32_19 : BitVec 32 := 0#32
  let c1_i32 : BitVec 32 := 1#32
  let arg16 : BitVec 32 := Scf.iv c0_i32_19 c1_i32 k0_t1
  let c1_i32_21 : BitVec 32 := 1#32
  let v35 : BitVec 32 := Scalar.muli arg16 c1_i32_21
  let v36 : BitVec 32 := Scalar.addi c0_i32_22 v35
  let c16_i32 : BitVec 32 := 16#32
  let v37 : BitVec 32 := Scalar.muli v36 c16_i32
  let v38 : BitVec 32 := v37
  let c14_i32 : BitVec 32 := 14#32
  let v193 : BitVec 32 := Scalar.addi v38 c14_i32
  let v194 : Index := Scalar.indexCast v193
  ![v194.toNat]
def k0_off44 (v195 : BitVec 32) : Fin 2 → Nat :=
  let v196 : Index := Scalar.indexCast v195
  let c0_81 : Index := 0#32
  ![v196.toNat, 0]

def k0_chk15 (v195 : BitVec 32) : Prop :=
  (∀ a, (k0_off44 v195) a + S1x256.size a ≤ S50000x256.size a)
instance k0_chk15.dec : ∀ (v195 : BitVec 32), Decidable (k0_chk15 v195) := fun v195 => decidable_of_iff' _ (Iff.of_eq (k0_chk15.eq_1 v195))
theorem k0_off44_inb : ∀ (v195 : BitVec 32) (k0_hw15 : k0_chk15 v195), ∀ a, (k0_off44 v195) a + S1x256.size a ≤ S50000x256.size a := fun v195 k0_hw15 => k0_hw15

def k0_off45 (k0_t1 : Fin k0_t1_loop.trips) : Fin 2 → Nat :=
  let c0_i32_22 : BitVec 32 := 0#32
  let c0_i32_19 : BitVec 32 := 0#32
  let c1_i32 : BitVec 32 := 1#32
  let arg16 : BitVec 32 := Scf.iv c0_i32_19 c1_i32 k0_t1
  let c1_i32_21 : BitVec 32 := 1#32
  let v35 : BitVec 32 := Scalar.muli arg16 c1_i32_21
  let v36 : BitVec 32 := Scalar.addi c0_i32_22 v35
  let c16_i32 : BitVec 32 := 16#32
  let v37 : BitVec 32 := Scalar.muli v36 c16_i32
  let v38 : BitVec 32 := v37
  let c14_i32_82 : BitVec 32 := 14#32
  let v198 : BitVec 32 := Scalar.addi v38 c14_i32_82
  let v199 : Index := Scalar.indexCast v198
  let c0_83 : Index := 0#32
  ![v199.toNat, 0]
def k0_off46 (k0_t1 : Fin k0_t1_loop.trips) : Fin 1 → Nat :=
  let c0_i32_22 : BitVec 32 := 0#32
  let c0_i32_19 : BitVec 32 := 0#32
  let c1_i32 : BitVec 32 := 1#32
  let arg16 : BitVec 32 := Scf.iv c0_i32_19 c1_i32 k0_t1
  let c1_i32_21 : BitVec 32 := 1#32
  let v35 : BitVec 32 := Scalar.muli arg16 c1_i32_21
  let v36 : BitVec 32 := Scalar.addi c0_i32_22 v35
  let c16_i32 : BitVec 32 := 16#32
  let v37 : BitVec 32 := Scalar.muli v36 c16_i32
  let v38 : BitVec 32 := v37
  let c15_i32 : BitVec 32 := 15#32
  let v204 : BitVec 32 := Scalar.addi v38 c15_i32
  let v205 : Index := Scalar.indexCast v204
  ![v205.toNat]
def k0_off47 (v206 : BitVec 32) : Fin 2 → Nat :=
  let v207 : Index := Scalar.indexCast v206
  let c0_85 : Index := 0#32
  ![v207.toNat, 0]

def k0_chk16 (v206 : BitVec 32) : Prop :=
  (∀ a, (k0_off47 v206) a + S1x256.size a ≤ S50000x256.size a)
instance k0_chk16.dec : ∀ (v206 : BitVec 32), Decidable (k0_chk16 v206) := fun v206 => decidable_of_iff' _ (Iff.of_eq (k0_chk16.eq_1 v206))
theorem k0_off47_inb : ∀ (v206 : BitVec 32) (k0_hw16 : k0_chk16 v206), ∀ a, (k0_off47 v206) a + S1x256.size a ≤ S50000x256.size a := fun v206 k0_hw16 => k0_hw16

def k0_off48 (k0_t1 : Fin k0_t1_loop.trips) : Fin 2 → Nat :=
  let c0_i32_22 : BitVec 32 := 0#32
  let c0_i32_19 : BitVec 32 := 0#32
  let c1_i32 : BitVec 32 := 1#32
  let arg16 : BitVec 32 := Scf.iv c0_i32_19 c1_i32 k0_t1
  let c1_i32_21 : BitVec 32 := 1#32
  let v35 : BitVec 32 := Scalar.muli arg16 c1_i32_21
  let v36 : BitVec 32 := Scalar.addi c0_i32_22 v35
  let c16_i32 : BitVec 32 := 16#32
  let v37 : BitVec 32 := Scalar.muli v36 c16_i32
  let v38 : BitVec 32 := v37
  let c15_i32_86 : BitVec 32 := 15#32
  let v209 : BitVec 32 := Scalar.addi v38 c15_i32_86
  let v210 : Index := Scalar.indexCast v209
  let c0_87 : Index := 0#32
  ![v210.toNat, 0]
def k0_off49 (k0_t1 : Fin k0_t1_loop.trips) : Fin 2 → Nat :=
  let c0_i32_22 : BitVec 32 := 0#32
  let c0_i32_19 : BitVec 32 := 0#32
  let c1_i32 : BitVec 32 := 1#32
  let arg16 : BitVec 32 := Scf.iv c0_i32_19 c1_i32 k0_t1
  let c1_i32_21 : BitVec 32 := 1#32
  let v35 : BitVec 32 := Scalar.muli arg16 c1_i32_21
  let v36 : BitVec 32 := Scalar.addi c0_i32_22 v35
  let c16_i32 : BitVec 32 := 16#32
  let v37 : BitVec 32 := Scalar.muli v36 c16_i32
  let v38 : BitVec 32 := v37
  let v217 : Index := Scalar.indexCast v38
  let c0_89 : Index := 0#32
  ![v217.toNat, 0]
def cc0_transform_1 (i : grid0.Coords) : Fin 2 → Nat :=
  let arg0 : BitVec 32 := BitVec.ofNat 32 (i 0).val
  let arg1 : BitVec 32 := BitVec.ofNat 32 (i 1).val
  let c391_i32 : BitVec 32 := 391#32
  let v0 : BitVec 32 := Scalar.muli arg0 c391_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c391_i32 : BitVec 32 := 391#32
  let v0 : BitVec 32 := Scalar.muli arg0 c391_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 1 → Nat :=
  let arg0 : BitVec 32 := BitVec.ofNat 32 (i 0).val
  let arg1 : BitVec 32 := BitVec.ofNat 32 (i 1).val
  let c391_i32 : BitVec 32 := 391#32
  let v0 : BitVec 32 := Scalar.muli arg0 c391_i32
  let v1 : BitVec 32 := Scalar.addi v0 arg1
  let c0_i32 : BitVec 32 := 0#32
  ![v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let arg1 : BitVec 32 := BitVec.ofNat 32 (i 1).val
  let c391_i32 : BitVec 32 := 391#32
  let v0 : BitVec 32 := Scalar.muli arg0 c391_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .smem S1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S800000x17_S800000x1_0_0 : S800000x17.Slices ![0, 0] S800000x1
  bcast_S_S800000x1 : S_.BroadcastsInDim S800000x1 (![] : Fin 0 → Fin S800000x1.rank)
  slices_S800000x17_S800000x16_0_1 : S800000x17.Slices ![0, 1] S800000x16
  pads_S800000_S800768_07680 : S800000.Pads (![0] : Fin 1 → Nat) ![768] ![0] S800768
  h_S_ : 0 < S_.numel
  pads_S800000x16_S800768x16_07680_000 : S800000x16.Pads (![0, 0] : Fin 2 → Nat) ![768, 0] ![0, 0] S800768x16
  pads_S800000x1_S800768x1_07680_000 : S800000x1.Pads (![0, 0] : Fin 2 → Nat) ![768, 0] ![0, 0] S800768x1
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S16x128_S16x128_0_0 : ∀ a, (![0, 0] : Fin 2 → Nat) a + S16x128.size a ≤ S16x128.size a
  h_S16x128 : 0 < S16x128.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S128x128_S128x128_0_0 : ∀ a, (![0, 0] : Fin 2 → Nat) a + S128x128.size a ≤ S128x128.size a
  h_S128x128 : 0 < S128x128.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x128 : S1024x1.Broadcasts S1024x128
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  numel1_S1 : S1.numel = 1
  h_S1x256 : 0 < S1x256.numel
  concatenates_S1x256_S1x256_S1x256_S1x256_S1x256_S1x256_S1x256_S1x256_S1x256_S1x256_S1x256_S1x256_S1x256_S1x256_S1x256_S1x256_S16x256_d0 : Shape.Concatenates [S1x256, S1x256, S1x256, S1x256, S1x256, S1x256, S1x256, S1x256, S1x256, S1x256, S1x256, S1x256, S1x256, S1x256, S1x256, S1x256] S16x256 0
  bitsLt_bf16_f32 : FTy.bits .bf16 < FTy.bits .f32
  h_S16x256 : 0 < S16x256.numel
  bcast_S_S50000x256 : S_.BroadcastsInDim S50000x256 (![] : Fin 0 → Fin S50000x256.rank)
  bcast_S800768_S800768x1_0 : S800768.BroadcastsInDim S800768x1 (![0] : Fin 1 → Fin S800768x1.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  broadcasts_S1x256_S2000x256 : S1x256.Broadcasts S2000x256
  reduces_S2000x256_S2000 : S2000x256.Reduces [1] S2000
  shapeCasts_S2000_S2000x1 : S2000.ShapeCasts S2000x1
  broadcasts_S2000x1_S2000x256 : S2000x1.Broadcasts S2000x256
  dot_S1024x16_S16x128_S1024x128_1_0_0_1_n_n_wf : DotDims.WF S1024x16 S16x128 S1024x128 [1] [0] [0] [1] [] []
  dot_S1024x128_S128x128_S1024x128_1_0_0_1_n_n_wf : DotDims.WF S1024x128 S128x128 S1024x128 [1] [0] [0] [1] [] []
  dot_S1024x128_S128x256_S1024x256_1_0_0_1_n_n_wf : DotDims.WF S1024x128 S128x256 S1024x256 [1] [0] [0] [1] [] []
  scatter_S50000x256_S800768x1_S800768x256_1_0_0_1_wf : ScatterDims.WF S50000x256 S800768x1 S800768x256 [1] [0] [0] 1
  dot_S2000x256_S256x256_S2000x256_1_0_0_1_n_n_wf : DotDims.WF S2000x256 S256x256 S2000x256 [1] [0] [0] [1] [] []
  hcc0_scratch1 : 14 + S_.numel ≤ 27
  hrank0 : 0 < grid0.rank
  k0_t1_ok : k0_t1_loop.OK
  k0_mult1_dvd : ∀ k0_t1 : Fin k0_t1_loop.trips, 16 ∣ (k0_mult1 k0_t1).toNat
  k0_off1_inb : ∀ k0_t1 : Fin k0_t1_loop.trips, ∀ a, (k0_off1 k0_t1) a + S1.size a ≤ S1024.size a
  k0_off3_inb : ∀ k0_t1 : Fin k0_t1_loop.trips, ∀ a, (k0_off3 k0_t1) a + S1x256.size a ≤ S1024x256.size a
  k0_off4_inb : ∀ k0_t1 : Fin k0_t1_loop.trips, ∀ a, (k0_off4 k0_t1) a + S1.size a ≤ S1024.size a
  k0_off6_inb : ∀ k0_t1 : Fin k0_t1_loop.trips, ∀ a, (k0_off6 k0_t1) a + S1x256.size a ≤ S1024x256.size a
  k0_off7_inb : ∀ k0_t1 : Fin k0_t1_loop.trips, ∀ a, (k0_off7 k0_t1) a + S1.size a ≤ S1024.size a
  k0_off9_inb : ∀ k0_t1 : Fin k0_t1_loop.trips, ∀ a, (k0_off9 k0_t1) a + S1x256.size a ≤ S1024x256.size a
  k0_off10_inb : ∀ k0_t1 : Fin k0_t1_loop.trips, ∀ a, (k0_off10 k0_t1) a + S1.size a ≤ S1024.size a
  k0_off12_inb : ∀ k0_t1 : Fin k0_t1_loop.trips, ∀ a, (k0_off12 k0_t1) a + S1x256.size a ≤ S1024x256.size a
  k0_off13_inb : ∀ k0_t1 : Fin k0_t1_loop.trips, ∀ a, (k0_off13 k0_t1) a + S1.size a ≤ S1024.size a
  k0_off15_inb : ∀ k0_t1 : Fin k0_t1_loop.trips, ∀ a, (k0_off15 k0_t1) a + S1x256.size a ≤ S1024x256.size a
  k0_off16_inb : ∀ k0_t1 : Fin k0_t1_loop.trips, ∀ a, (k0_off16 k0_t1) a + S1.size a ≤ S1024.size a
  k0_off18_inb : ∀ k0_t1 : Fin k0_t1_loop.trips, ∀ a, (k0_off18 k0_t1) a + S1x256.size a ≤ S1024x256.size a
  k0_off19_inb : ∀ k0_t1 : Fin k0_t1_loop.trips, ∀ a, (k0_off19 k0_t1) a + S1.size a ≤ S1024.size a
  k0_off21_inb : ∀ k0_t1 : Fin k0_t1_loop.trips, ∀ a, (k0_off21 k0_t1) a + S1x256.size a ≤ S1024x256.size a
  k0_off22_inb : ∀ k0_t1 : Fin k0_t1_loop.trips, ∀ a, (k0_off22 k0_t1) a + S1.size a ≤ S1024.size a
  k0_off24_inb : ∀ k0_t1 : Fin k0_t1_loop.trips, ∀ a, (k0_off24 k0_t1) a + S1x256.size a ≤ S1024x256.size a
  k0_off25_inb : ∀ k0_t1 : Fin k0_t1_loop.trips, ∀ a, (k0_off25 k0_t1) a + S1.size a ≤ S1024.size a
  k0_off27_inb : ∀ k0_t1 : Fin k0_t1_loop.trips, ∀ a, (k0_off27 k0_t1) a + S1x256.size a ≤ S1024x256.size a
  k0_off28_inb : ∀ k0_t1 : Fin k0_t1_loop.trips, ∀ a, (k0_off28 k0_t1) a + S1.size a ≤ S1024.size a
  k0_off30_inb : ∀ k0_t1 : Fin k0_t1_loop.trips, ∀ a, (k0_off30 k0_t1) a + S1x256.size a ≤ S1024x256.size a
  k0_off31_inb : ∀ k0_t1 : Fin k0_t1_loop.trips, ∀ a, (k0_off31 k0_t1) a + S1.size a ≤ S1024.size a
  k0_off33_inb : ∀ k0_t1 : Fin k0_t1_loop.trips, ∀ a, (k0_off33 k0_t1) a + S1x256.size a ≤ S1024x256.size a
  k0_off34_inb : ∀ k0_t1 : Fin k0_t1_loop.trips, ∀ a, (k0_off34 k0_t1) a + S1.size a ≤ S1024.size a
  k0_off36_inb : ∀ k0_t1 : Fin k0_t1_loop.trips, ∀ a, (k0_off36 k0_t1) a + S1x256.size a ≤ S1024x256.size a
  k0_off37_inb : ∀ k0_t1 : Fin k0_t1_loop.trips, ∀ a, (k0_off37 k0_t1) a + S1.size a ≤ S1024.size a
  k0_off39_inb : ∀ k0_t1 : Fin k0_t1_loop.trips, ∀ a, (k0_off39 k0_t1) a + S1x256.size a ≤ S1024x256.size a
  k0_off40_inb : ∀ k0_t1 : Fin k0_t1_loop.trips, ∀ a, (k0_off40 k0_t1) a + S1.size a ≤ S1024.size a
  k0_off42_inb : ∀ k0_t1 : Fin k0_t1_loop.trips, ∀ a, (k0_off42 k0_t1) a + S1x256.size a ≤ S1024x256.size a
  k0_off43_inb : ∀ k0_t1 : Fin k0_t1_loop.trips, ∀ a, (k0_off43 k0_t1) a + S1.size a ≤ S1024.size a
  k0_off45_inb : ∀ k0_t1 : Fin k0_t1_loop.trips, ∀ a, (k0_off45 k0_t1) a + S1x256.size a ≤ S1024x256.size a
  k0_off46_inb : ∀ k0_t1 : Fin k0_t1_loop.trips, ∀ a, (k0_off46 k0_t1) a + S1.size a ≤ S1024.size a
  k0_off48_inb : ∀ k0_t1 : Fin k0_t1_loop.trips, ∀ a, (k0_off48 k0_t1) a + S1x256.size a ≤ S1024x256.size a
  k0_off49_inb : ∀ k0_t1 : Fin k0_t1_loop.trips, ∀ a, (k0_off49 k0_t1) a + S16x256.size a ≤ S1024x256.size a
  k0_off49_packedbf16 : ∀ k0_t1 : Fin k0_t1_loop.trips, (Rect.unit (s := S1024x256) (k0_off49 k0_t1) S16x256.size (k0_off49_inb k0_t1)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S1024x16.size a ≤ S800768x16.size a
  hwx0_0 : ∀ i : grid0.Coords, EltTy.bits .f32 = 32 ∨ (Rect.block (s := S800768x16) S1024x16.size (cc0_transform_1 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_2 i = cc0_transform_2 i'
  hinb0_1 : ∀ (i : grid0.Coords) a, (cc0_transform_2 i a + 1) * S1024x1.size a ≤ S800768x1.size a
  hwx0_1 : ∀ i : grid0.Coords, EltTy.bits .f32 = 32 ∨ (Rect.block (s := S800768x1) S1024x1.size (cc0_transform_2 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_3 i = cc0_transform_3 i'
  hinb0_2 : ∀ (i : grid0.Coords) a, (cc0_transform_3 i a + 1) * S1024.size a ≤ S800768.size a
  hwx0_2 : ∀ i : grid0.Coords, EltTy.bits .i32 = 32 ∨ (Rect.block (s := S800768) S1024.size (cc0_transform_3 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_4 i = cc0_transform_4 i'
  hinb0_3 : ∀ (i : grid0.Coords) a, (cc0_transform_4 i a + 1) * S16x128.size a ≤ S16x128.size a
  hwx0_3 : ∀ i : grid0.Coords, EltTy.bits .f32 = 32 ∨ (Rect.block (s := S16x128) S16x128.size (cc0_transform_4 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_5 i = cc0_transform_5 i'
  hinb0_4 : ∀ (i : grid0.Coords) a, (cc0_transform_5 i a + 1) * S128.size a ≤ S128.size a
  hwx0_4 : ∀ i : grid0.Coords, EltTy.bits .f32 = 32 ∨ (Rect.block (s := S128) S128.size (cc0_transform_5 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_6 i = cc0_transform_6 i'
  hinb0_5 : ∀ (i : grid0.Coords) a, (cc0_transform_6 i a + 1) * S128x128.size a ≤ S128x128.size a
  hwx0_5 : ∀ i : grid0.Coords, EltTy.bits .f32 = 32 ∨ (Rect.block (s := S128x128) S128x128.size (cc0_transform_6 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_7 i = cc0_transform_7 i'
  hinb0_6 : ∀ (i : grid0.Coords) a, (cc0_transform_7 i a + 1) * S128.size a ≤ S128.size a
  hwx0_6 : ∀ i : grid0.Coords, EltTy.bits .f32 = 32 ∨ (Rect.block (s := S128) S128.size (cc0_transform_7 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_8 i = cc0_transform_8 i'
  hinb0_7 : ∀ (i : grid0.Coords) a, (cc0_transform_8 i a + 1) * S128x256.size a ≤ S128x256.size a
  hwx0_7 : ∀ i : grid0.Coords, EltTy.bits .f32 = 32 ∨ (Rect.block (s := S128x256) S128x256.size (cc0_transform_8 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_9 i = cc0_transform_9 i'
  hinb0_8 : ∀ (i : grid0.Coords) a, (cc0_transform_9 i a + 1) * S256.size a ≤ S256.size a
  hwx0_8 : ∀ i : grid0.Coords, EltTy.bits .f32 = 32 ∨ (Rect.block (s := S256) S256.size (cc0_transform_9 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_10 i = cc0_transform_10 i'
  hinb0_9 : ∀ (i : grid0.Coords) a, (cc0_transform_10 i a + 1) * S1024x256.size a ≤ S800768x256.size a
  hwx0_9 : ∀ i : grid0.Coords, EltTy.bits .bf16 = 32 ∨ (Rect.block (s := S800768x256) S1024x256.size (cc0_transform_10 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x256.size a ≤ S256x256.size a
  hwx1_6 : ∀ i : grid1.Coords, EltTy.bits .f32 = 32 ∨ (Rect.block (s := S256x256) S256x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256.size a ≤ S256.size a
  hwx1_7 : ∀ i : grid1.Coords, EltTy.bits .f32 = 32 ∨ (Rect.block (s := S256) S256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x256.size a ≤ S50000x256.size a
  hwx1_8 : ∀ i : grid1.Coords, EltTy.bits .f32 = 32 ∨ (Rect.block (s := S50000x256) S2000x256.size (cc1_transform_8 i) (hinb1_8 i)).WholeWords (EltTy.packing .f32)

variable [Facts₀]

abbrev cc0_scratch1 : DmaSems sig S_ := SemArray.consecutive 14 S_ hcc0_scratch1
def dot_S1024x16_S16x128_S1024x128_1_0_0_1_n_n : DotDims S1024x16 S16x128 S1024x128 where
  lhsContracting := [1]
  rhsContracting := [0]
  lhsNonContracting := [0]
  rhsNonContracting := [1]
  lhsBatch := []
  rhsBatch := []
  wf := dot_S1024x16_S16x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def scatter_S50000x256_S800768x1_S800768x256_1_0_0_1 : ScatterDims S50000x256 S800768x1 S800768x256 where
  updateWindowDims := [1]
  insertedWindowDims := [0]
  scatterDimsToOperandDims := [0]
  indexVectorDim := 1
  wf := scatter_S50000x256_S800768x1_S800768x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v8) S1024x16.size cc0_transform_1 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x1.size cc0_transform_2 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024.size cc0_transform_3 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x128.size cc0_transform_4 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_5 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_6 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_7 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x256.size cc0_transform_8 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256.size cc0_transform_9 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1024x256.size cc0_transform_10 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg13) S256x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg14) S256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v16) S2000x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S800000x17 : Shape := ⟨2, ![800000, 17]⟩
abbrev S16x128 : Shape := ⟨2, ![16, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S800000x1 : Shape := ⟨2, ![800000, 1]⟩
abbrev S_ : Shape := ⟨0, ![]⟩
abbrev S800000x16 : Shape := ⟨2, ![800000, 16]⟩
abbrev S800000x128 : Shape := ⟨2, ![800000, 128]⟩
abbrev S1x128 : Shape := ⟨2, ![1, 128]⟩
abbrev S800000x256 : Shape := ⟨2, ![800000, 256]⟩
abbrev S1x256 : Shape := ⟨2, ![1, 256]⟩
abbrev S50000 : Shape := ⟨1, ![50000]⟩
abbrev S50000x1 : Shape := ⟨2, ![50000, 1]⟩

abbrev nBuf : Space → Nat
  | .hbm => 107
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000x17, .f32⟩
  | .hbm, ⟨3, _⟩ => ⟨S16x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S800000x1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S800000x1, .f32⟩
  | .hbm, ⟨24, _⟩ => ⟨S800000x1, .f32⟩
  | .hbm, ⟨25, _⟩ => ⟨S_, .f32⟩
  | .hbm, ⟨26, _⟩ => ⟨S800000x1, .f32⟩
  | .hbm, ⟨27, _⟩ => ⟨S800000x1, .f32⟩
  | .hbm, ⟨28, _⟩ => ⟨S800000x16, .f32⟩
  | .hbm, ⟨29, _⟩ => ⟨S800000x128, .f32⟩
  | .hbm, ⟨30, _⟩ => ⟨S1x128, .f32⟩
  | .hbm, ⟨31, _⟩ => ⟨S800000x128, .f32⟩
  | .hbm, ⟨32, _⟩ => ⟨S800000x128, .f32⟩
  | .hbm, ⟨33, _⟩ => ⟨S_, .f32⟩
  | .hbm, ⟨34, _⟩ => ⟨S800000x128, .f32⟩
  | .hbm, ⟨35, _⟩ => ⟨S800000x128, .f32⟩
  | .hbm, ⟨36, _⟩ => ⟨S800000x128, .f32⟩
  | .hbm, ⟨37, _⟩ => ⟨S1x128, .f32⟩
  | .hbm, ⟨38, _⟩ => ⟨S800000x128, .f32⟩
  | .hbm, ⟨39, _⟩ => ⟨S800000x128, .f32⟩
  | .hbm, ⟨40, _⟩ => ⟨S_, .f32⟩
  | .hbm, ⟨41, _⟩ => ⟨S800000x1, .f32⟩
  | .hbm, ⟨42, _⟩ => ⟨S800000x1, .f32⟩
  | .hbm, ⟨43, _⟩ => ⟨S800000x128, .f32⟩
  | .hbm, ⟨44, _⟩ => ⟨S800000x128, .f32⟩
  | .hbm, ⟨45, _⟩ => ⟨S800000x256, .f32⟩
  | .hbm, ⟨46, _⟩ => ⟨S1x256, .f32⟩
  | .hbm, ⟨47, _⟩ => ⟨S800000x256, .f32⟩
  | .hbm, ⟨48, _⟩ => ⟨S800000x256, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x256, .f32⟩
  | .hbm, ⟨58, _⟩ => ⟨S800000x256, .f32⟩
  | .hbm, ⟨59, _⟩ => ⟨S_, .f32⟩
  | .hbm, ⟨60, _⟩ => ⟨S800000x256, .f32⟩
  | .hbm, ⟨61, _⟩ => ⟨S800000x256, .f32⟩
  | .hbm, ⟨62, _⟩ => ⟨S_, .f32⟩
  | .hbm, ⟨63, _⟩ => ⟨S50000x256, .f32⟩
  | .hbm, ⟨64, _⟩ => ⟨S800000x1, .i32⟩
  | .hbm, ⟨65, _⟩ => ⟨S50000x256, .f32⟩
  | .hbm, ⟨66, _⟩ => ⟨S50000x256, .f32⟩
  | .hbm, ⟨67, _⟩ => ⟨S50000x256, .f32⟩
  | .hbm, ⟨68, _⟩ => ⟨S1x256, .f32⟩
  | .hbm, ⟨69, _⟩ => ⟨S50000x256, .f32⟩
  | .hbm, ⟨70, _⟩ => ⟨S50000x256, .f32⟩
  | .hbm, ⟨71, _⟩ => ⟨S_, .f32⟩
  | .hbm, ⟨72, _⟩ => ⟨S50000, .f32⟩
  | .hbm, ⟨73, _⟩ => ⟨S50000x1, .f32⟩
  | .hbm, ⟨74, _⟩ => ⟨S_, .f32⟩
  | .hbm, ⟨75, _⟩ => ⟨S50000x1, .f32⟩
  | .hbm, ⟨76, _⟩ => ⟨S50000x1, .f32⟩
  | .hbm, ⟨77, _⟩ => ⟨S50000x256, .f32⟩
  | .hbm, ⟨78, _⟩ => ⟨S50000x256, .f32⟩
  | .hbm, ⟨79, _⟩ => ⟨S50000x256, .f32⟩
  | .hbm, ⟨80, _⟩ => ⟨S_, .f32⟩
  | .hbm, ⟨81, _⟩ => ⟨S50000, .f32⟩
  | .hbm, ⟨82, _⟩ => ⟨S50000x1, .f32⟩
  | .hbm, ⟨83, _⟩ => ⟨S_, .f32⟩
  | .hbm, ⟨84, _⟩ => ⟨S50000x1, .f32⟩
  | .hbm, ⟨85, _⟩ => ⟨S50000x1, .f32⟩
  | .hbm, ⟨86, _⟩ => ⟨S50000x256, .f32⟩
  | .hbm, ⟨87, _⟩ => ⟨S50000x256, .f32⟩
  | .hbm, ⟨88, _⟩ => ⟨S_, .f32⟩
  | .hbm, ⟨89, _⟩ => ⟨S50000x1, .f32⟩
  | .hbm, ⟨90, _⟩ => ⟨S50000x1, .f32⟩
  | .hbm, ⟨91, _⟩ => ⟨S50000x1, .f32⟩
  | .hbm, ⟨92, _⟩ => ⟨S50000x256, .f32⟩
  | .hbm, ⟨93, _⟩ => ⟨S50000x256, .f32⟩
  | .hbm, ⟨94, _⟩ => ⟨S1x256, .f32⟩
  | .hbm, ⟨95, _⟩ => ⟨S50000x256, .f32⟩
  | .hbm, ⟨96, _⟩ => ⟨S50000x256, .f32⟩
  | .hbm, ⟨97, _⟩ => ⟨S1x256, .f32⟩
  | .hbm, ⟨98, _⟩ => ⟨S50000x256, .f32⟩
  | .hbm, ⟨99, _⟩ => ⟨S50000x256, .f32⟩
  | .hbm, ⟨100, _⟩ => ⟨S_, .f32⟩
  | .hbm, ⟨101, _⟩ => ⟨S50000x256, .f32⟩
  | .hbm, ⟨102, _⟩ => ⟨S50000x256, .f32⟩
  | .hbm, ⟨103, _⟩ => ⟨S50000x256, .f32⟩
  | .hbm, ⟨104, _⟩ => ⟨S1x256, .f32⟩
  | .hbm, ⟨105, _⟩ => ⟨S50000x256, .f32⟩
  | .hbm, ⟨106, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_call1_cst : Ref sig .tc := ⟨.hbm, 33, rfl⟩
abbrev main_call1_v0 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_1 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c : Ref sig .tc := ⟨.hbm, 49, rfl⟩
abbrev main_v24 : Ref sig .tc := ⟨.hbm, 50, rfl⟩
abbrev main_v25 : Ref sig .tc := ⟨.hbm, 51, rfl⟩
abbrev main_c_2 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_call2_cst : Ref sig .tc := ⟨.hbm, 59, rfl⟩
abbrev main_call2_v0 : Ref sig .tc := ⟨.hbm, 60, rfl⟩
abbrev main_v32 : Ref sig .tc := ⟨.hbm, 61, rfl⟩
abbrev main_cst_3 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_4 : Ref sig .tc := ⟨.hbm, 71, rfl⟩
abbrev main_v41 : Ref sig .tc := ⟨.hbm, 72, rfl⟩
abbrev main_v42 : Ref sig .tc := ⟨.hbm, 73, rfl⟩
abbrev main_cst_5 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_6 : Ref sig .tc := ⟨.hbm, 80, rfl⟩
abbrev main_v48 : Ref sig .tc := ⟨.hbm, 81, rfl⟩
abbrev main_v49 : Ref sig .tc := ⟨.hbm, 82, rfl⟩
abbrev main_cst_7 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_8 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_call3_cst : Ref sig .tc := ⟨.hbm, 100, rfl⟩
abbrev main_call3_v0 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S800000x17_S800000x1_0_0 : S800000x17.Slices ![0, 0] S800000x1
  bcast_S_S800000x1 : S_.BroadcastsInDim S800000x1 (![] : Fin 0 → Fin S800000x1.rank)
  slices_S800000x17_S800000x16_0_1 : S800000x17.Slices ![0, 1] S800000x16
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S800000x1_S800000x128_0_1 : S800000x1.BroadcastsInDim S800000x128 (![0, 1] : Fin 2 → Fin S800000x128.rank)
  bcast_S256_S1x256_1 : S256.BroadcastsInDim S1x256 (![1] : Fin 1 → Fin S1x256.rank)
  bcast_S1x256_S800000x256_0_1 : S1x256.BroadcastsInDim S800000x256 (![0, 1] : Fin 2 → Fin S800000x256.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x256 : S_.BroadcastsInDim S800000x256 (![] : Fin 0 → Fin S800000x256.rank)
  bcast_S_S50000x256 : S_.BroadcastsInDim S50000x256 (![] : Fin 0 → Fin S50000x256.rank)
  bcast_S1x256_S50000x256_0_1 : S1x256.BroadcastsInDim S50000x256 (![0, 1] : Fin 2 → Fin S50000x256.rank)
  reducesTo_S50000x256_S50000_d1 : S50000x256.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  dot_S800000x16_S16x128_S800000x128_1_0_0_1_n_n_wf : DotDims.WF S800000x16 S16x128 S800000x128 [1] [0] [0] [1] [] []
  dot_S800000x128_S128x128_S800000x128_1_0_0_1_n_n_wf : DotDims.WF S800000x128 S128x128 S800000x128 [1] [0] [0] [1] [] []
  dot_S800000x128_S128x256_S800000x256_1_0_0_1_n_n_wf : DotDims.WF S800000x128 S128x256 S800000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []

variable [Facts₀]

def dot_S800000x16_S16x128_S800000x128_1_0_0_1_n_n : DotDims S800000x16 S16x128 S800000x128 where
  lhsContracting := [1]
  rhsContracting := [0]
  lhsNonContracting := [0]
  rhsNonContracting := [1]
  lhsBatch := []
  rhsBatch := []
  wf := dot_S800000x16_S16x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x256_S800000x256_1_0_0_1_n_n : DotDims S800000x128 S128x256 S800000x256 where
  lhsContracting := [1]
  rhsContracting := [0]
  lhsNonContracting := [0]
  rhsNonContracting := [1]
  lhsBatch := []
  rhsBatch := []
  wf := dot_S800000x128_S128x256_S800000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KI.LoopD.lean ====
import proofs.«420832_j83571473646104_4_alg».proof.Proof.Gen.KernelIdeal.Loops
import Idealize.ShloMosaic.Lib.Pipeline.Frame

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev TripD_k0_t1 (c : Dev nD) (arg5 : Memref sig .tc .smem S1024 .i32) (arg13 : Memref sig .tc .vmem S50000x256 .f32) (arg15 : Memref sig .tc .vmem S1024x256 .f32) (arg12 : Memref sig .tc .vmem S1024x256 .bf16) (X_arg5 : BufTy.Contents (Elt F) arg5.view.ty) (X_arg13 : BufTy.Contents (Elt F) arg13.view.ty) (X_arg15 : BufTy.Contents (Elt F) arg15.view.ty) (f_arg12 : BufTy.Contents (Elt F) arg12.view.ty) : sProp 𝕄 :=
  iprop((arg5.view.loc (c : Thread nD τ) ↦[arg5.view.set]{fullShare} X_arg5) ∗ (arg13.view.loc (c : Thread nD τ) ↦[arg13.view.set]{fullShare} X_arg13) ∗ (arg15.view.loc (c : Thread nD τ) ↦[arg15.view.set]{fullShare} X_arg15) ∗ (arg12.view.loc (c : Thread nD τ) ↦[arg12.view.set]{fullShare} f_arg12))

/-- A source word below the node count addresses a whole row of the 50000 × 256 table. -/
theorem chk_of_lt (v : BitVec 32) (h : v.toNat < 50000) (a : Fin 2) :
    (![(Scalar.indexCast v).toNat, 0] : Fin 2 → ℕ) a + S1x256.size a ≤ S50000x256.size a := by
  fin_cases a
  · show (Scalar.indexCast v).toNat + 1 ≤ 50000; unfold Scalar.indexCast; omega
  · show 0 + 256 ≤ 256; omega

variable (𝒱 : Variants) (c : Dev nD) (bd : Option 𝒱.V) (i : grid0.Coords) (arg2 : Memref sig .tc .hbm S50000x256 .f32) (harg2 : arg2.IsWhole) (arg3 : Memref sig .tc .vmem S1024x16 .f32) (harg3 : arg3.IsWhole) (arg4 : Memref sig .tc .vmem S1024x1 .f32) (harg4 : arg4.IsWhole) (arg5 : Memref sig .tc .smem S1024 .i32) (harg5 : arg5.IsWhole) (arg6 : Memref sig .tc .vmem S16x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S128x256 .f32) (harg10 : arg10.IsWhole) (arg11 : Memref sig .tc .vmem S256 .f32) (harg11 : arg11.IsWhole) (arg12 : Memref sig .tc .vmem S1024x256 .bf16) (harg12 : arg12.IsWhole) (arg13 : Memref sig .tc .vmem S50000x256 .f32) (harg13 : arg13.IsWhole) (arg14 : DmaSems sig S_) (arg15 : Memref sig .tc .vmem S1024x256 .f32) (harg15 : arg15.IsWhole)
  (X_arg5 : BufTy.Contents (Elt F) arg5.view.ty) (X_arg13 : BufTy.Contents (Elt F) arg13.view.ty) (X_arg15 : BufTy.Contents (Elt F) arg15.view.ty)
  (hw : ∀ (B : LoadRect S1024) (j : B.shape.Idx), BitVec.toNat (arg5.view.readAt (Elt F) B X_arg5 j) < 50000)

/-- Every index word a trip reads is below the node count, so each row it reads is in range. -/
@[irreducible] def tripD_k0_t1 (k : Fin k0_t1_loop.trips) :
    { L_arg12 : List (View.Piece (Elt F) S1024x256 .bf16) // ∀ (E : Set ℕ) (f_arg12 : BufTy.Contents (Elt F) arg12.view.ty),
      TripD_k0_t1 (F := F) c arg5 arg13 arg15 arg12 X_arg5 X_arg13 X_arg15 f_arg12
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 arg15 harg15 k PUnit.unit)
          (fun _ => TripD_k0_t1 (F := F) c arg5 arg13 arg15 arg12 X_arg5 X_arg13 X_arg15 (arg12.view.writes (Elt F) f_arg12 L_arg12)) } := by
  have hk : k.val < 64 := Nat.lt_of_lt_of_le k.isLt k0_t1_abs.2.1
  refine ⟨?_, fun E f_arg12 => ?run⟩
  case run =>
    unfold k0_t1_body
    iintro ⟨HR_arg5, HR_arg13, HR_arg15, HW_arg12⟩
    sl_exec (disch := exact chk_of_lt _ (hw _ _))
    sl_step
    sl_close

abbrev tripLD_k0_t1 (k : Fin k0_t1_loop.trips) : List (View.Piece (Elt F) S1024x256 .bf16) :=
  (tripD_k0_t1 (F := F) 𝒱 c bd i arg2 harg2 arg3 harg3 arg4 harg4 arg5 harg5 arg6 harg6 arg7 harg7 arg8 harg8 arg9 harg9 arg10 harg10 arg11 harg11 arg12 harg12 arg13 harg13 arg14 arg15 harg15 X_arg5 X_arg13 X_arg15 hw k).1

@[irreducible] def pbD_k0_t1Step (k : ℕ) (prev : List (View.Piece (Elt F) S1024x256 .bf16)) : List (View.Piece (Elt F) S1024x256 .bf16) :=
  if h : k < k0_t1_loop.trips then
    tripLD_k0_t1 (F := F) 𝒱 c bd i arg2 harg2 arg3 harg3 arg4 harg4 arg5 harg5 arg6 harg6 arg7 harg7 arg8 harg8 arg9 harg9 arg10 harg10 arg11 harg11 arg12 harg12 arg13 harg13 arg14 arg15 harg15 X_arg5 X_arg13 X_arg15 hw ⟨k, h⟩ ++ prev
  else prev

/-- The pieces of the trips before `k`, last trip first. -/
def pbD_k0_t1 : ℕ → List (View.Piece (Elt F) S1024x256 .bf16)
  | 0 => []
  | k + 1 => pbD_k0_t1Step 𝒱 c bd i arg2 harg2 arg3 harg3 arg4 harg4 arg5 harg5 arg6 harg6 arg7 harg7 arg8 harg8 arg9 harg9 arg10 harg10 arg11 harg11 arg12 harg12 arg13 harg13 arg14 arg15 harg15 X_arg5 X_arg13 X_arg15 hw k (pbD_k0_t1 k)

theorem pbD_k0_t1_succ (k : Fin k0_t1_loop.trips) :
    pbD_k0_t1 (F := F) 𝒱 c bd i arg2 harg2 arg3 harg3 arg4 harg4 arg5 harg5 arg6 harg6 arg7 harg7 arg8 harg8 arg9 harg9 arg10 harg10 arg11 harg11 arg12 harg12 arg13 harg13 arg14 arg15 harg15 X_arg5 X_arg13 X_arg15 hw (k.val + 1)
      = tripLD_k0_t1 (F := F) 𝒱 c bd i arg2 harg2 arg3 harg3 arg4 harg4 arg5 harg5 arg6 harg6 arg7 harg7 arg8 harg8 arg9 harg9 arg10 harg10 arg11 harg11 arg12 harg12 arg13 harg13 arg14 arg15 harg15 X_arg5 X_arg13 X_arg15 hw k
        ++ pbD_k0_t1 (F := F) 𝒱 c bd i arg2 harg2 arg3 harg3 arg4 harg4 arg5 harg5 arg6 harg6 arg7 harg7 arg8 harg8 arg9 harg9 arg10 harg10 arg11 harg11 arg12 harg12 arg13 harg13 arg14 arg15 harg15 X_arg5 X_arg13 X_arg15 hw k.val := by
  rw [pbD_k0_t1.eq_2]; unfold pbD_k0_t1Step; exact dif_pos k.isLt

/-- Before trip `k` the output buffer holds the pieces of the trips before `k` over its contents at loop entry. -/
abbrev invD_k0_t1 (G_arg12 : BufTy.Contents (Elt F) arg12.view.ty) (k : ℕ) (_u : PUnit) : sProp 𝕄 :=
  iprop((arg5.view.loc (c : Thread nD τ) ↦[arg5.view.set]{fullShare} X_arg5) ∗ (arg13.view.loc (c : Thread nD τ) ↦[arg13.view.set]{fullShare} X_arg13) ∗ (arg15.view.loc (c : Thread nD τ) ↦[arg15.view.set]{fullShare} X_arg15) ∗ (∃ f, (arg12.view.loc (c : Thread nD τ) ↦[arg12.view.set]{fullShare} f) ∗ ⌜f = arg12.view.writes (Elt F) G_arg12 (pbD_k0_t1 (F := F) 𝒱 c bd i arg2 harg2 arg3 harg3 arg4 harg4 arg5 harg5 arg6 harg6 arg7 harg7 arg8 harg8 arg9 harg9 arg10 harg10 arg11 harg11 arg12 harg12 arg13 harg13 arg14 arg15 harg15 X_arg5 X_arg13 X_arg15 hw k)⌝))

set_option warn.classDefReducibility false in
/-- One trip extends the piece list by its own pieces. -/
@[sl_loop] def loopInvD_k0_t1 (E : Set ℕ) (G_arg12 : BufTy.Contents (Elt F) arg12.view.ty) :
    LoopInvTy_k0_t1 (F := F) Unit ℕ (Pipeline.UD sig nD τ) ℕ 𝒱 c bd E i arg2 harg2 arg3 harg3 arg4 harg4 arg5 harg5 arg6 harg6 arg7 harg7 arg8 harg8 arg9 harg9 arg10 harg10 arg11 harg11 arg12 harg12 arg13 harg13 arg14 arg15 harg15 where
  inv := invD_k0_t1 (F := F) 𝒱 c bd i arg2 harg2 arg3 harg3 arg4 harg4 arg5 harg5 arg6 harg6 arg7 harg7 arg8 harg8 arg9 harg9 arg10 harg10 arg11 harg11 arg12 harg12 arg13 harg13 arg14 arg15 harg15 X_arg5 X_arg13 X_arg15 hw G_arg12
  step k acc := by
    iintro ⟨HR_arg5, HR_arg13, HR_arg15, ⟨%f_arg12, HW_arg12, %h_arg12⟩⟩
    iapply (wp_wand_r Idealize.ShloMosaic.frame (wpE (defs₀ (F := F)) 𝒱 (c : Thread nD τ) bd) E)
    isplitl [HR_arg5 HR_arg13 HR_arg15 HW_arg12]
    · iapply ((tripD_k0_t1 (F := F) 𝒱 c bd i arg2 harg2 arg3 harg3 arg4 harg4 arg5 harg5 arg6 harg6 arg7 harg7 arg8 harg8 arg9 harg9 arg10 harg10 arg11 harg11 arg12 harg12 arg13 harg13 arg14 arg15 harg15 X_arg5 X_arg13 X_arg15 hw k).2 E f_arg12)
      isplitl [HR_arg5]; · iexact HR_arg5
      isplitl [HR_arg13]; · iexact HR_arg13
      isplitl [HR_arg15]; · iexact HR_arg15
      iexact HW_arg12
    · iintro %_ ⟨HR_arg5, HR_arg13, HR_arg15, HW_arg12⟩
      isplitl [HR_arg5]; · iexact HR_arg5
      isplitl [HR_arg13]; · iexact HR_arg13
      isplitl [HR_arg15]; · iexact HR_arg15
      rw [pbD_k0_t1_succ]
      iexists _; isplitl [HW_arg12]; · iexact HW_arg12
      ipureintro; rw [h_arg12, ← View.writes_append]

end Cert.KernelIdeal.Hand

end
-- ==== Proof.KI.Reg0.lean ====
import proofs.«420832_j83571473646104_4_alg».proof.Proof.KI.LoopD
import proofs.«420832_j83571473646104_4_alg».proof.Proof.Gen.KernelIdeal.Launch
import proofs.«420832_j83571473646104_4_alg».proof.Proof.Gen.KernelIdeal.Skeleton
import proofs.«420832_j83571473646104_4_alg».proof.Proof.Gen.KernelIdeal.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Ring
import Idealize.ShloMosaic.Lib.WholeRead
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev srcBlk0 (c : Dev nD) (t : Fin cfg0.N) : Vec F S1024 .i32 := iblk0 V c 2 t

def Hyps0 : Prop := ∀ (c : Dev nD) (t : Fin cfg0.N) (r : S1024.Idx), BitVec.toNat (srcBlk0 V c t r) < 50000

abbrev scM0_0 : Memref sig .tc .vmem S50000x256 .f32 := Memref.whole cc0_scratch0
abbrev scM0_2 : Memref sig .tc .vmem S1024x256 .f32 := Memref.whole cc0_scratch2
abbrev hbM0_0 : Memref sig .tc .hbm S50000x256 .f32 := Memref.whole main_arg0
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

abbrev xArr0 (c : Dev nD) : Vec F S50000x256 .f32 := hbM0_0.view.read (Elt F) (V c main_arg0)

abbrev osem0 : Fin 1 → SemLoc sig := fun j => (![SemLoc.dma 14] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 14) 0) := by
  rw [Pipeline.ownSems0_eq_of_list c osem0 [0] (by decide) (by decide)]; rfl

def H0 : Finset (Ref sig .tc) := {main_arg0}
theorem H0_sub : H0 ⊆ Pipeline.restRefs sig spec0 := by decide
theorem hbmPts0_eq (c : Dev nD) :
    (bigSep H0 (fun b => ((c : Thread nD τ).loc b) ↦{fullShare} V c b) : sProp 𝕄) = iprop(hbPt0 c hbM0_0 (V c main_arg0)) := by
  rw [BI.bigSep_eq_bigSepL_of_eq [main_arg0] (by decide) (by decide)]; rfl

abbrev cond0 (i : grid0.Coords) : Prop :=
  Scalar.cmpi .ne (Scalar.extui (Scalar.cmpi .eq (BitVec.ofNat 32 (i 1).val) 0#32)) 0#32 = 1#1

theorem hcond0 : ∀ t : Fin cfg0.N, cond0 (grid0.coords t) ↔ t.val % 391 = 0 :=
  (by decide +kernel : ∀ t : Fin grid0.N, cond0 (grid0.coords t) ↔ t.val % 391 = 0)

abbrev ms0_0 (t : Fin cfg0.N) : Memref sig .tc .vmem S1024x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S1024 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x256 .bf16 := win0_9.stage (cfg0.slots t 9)
abbrev hs0_9 (t : Fin cfg0.N) : (ms0_9 t).IsWhole := hstage0_9 ((cfg0.slots t 9).cast nbuf0_9)

theorem word_lt0 (arg5 : Memref sig .tc .smem S1024 .i32) (x2 : Vec F S1024 .i32)
    (hx2 : ∀ r : S1024.Idx, BitVec.toNat (x2 r) < 50000) (B : LoadRect S1024) (j : B.shape.Idx) :
    BitVec.toNat (arg5.view.readAt (Elt F) B (arg5.view.rep x2) j) < 50000 := by
  rw [View.readAt_rep]; exact hx2 _

def xOf0 (c : Dev nD) (fh0 : HbBuf0 (F := F) c hbM0_0) : Vec F S50000x256 .f32 := ReadAs.same.apply (hbM0_0.view.read (Elt F) fh0)

def X13_0 (c : Dev nD) (fh0 : HbBuf0 (F := F) c hbM0_0) : BufTy.Contents (Elt F) scM0_0.view.ty :=
  scM0_0.view.writes (Elt F) scM0_0.view.junk [⟨Rect.whole S50000x256, xOf0 c fh0⟩]

theorem read_X13_0 (c : Dev nD) (fh0 : HbBuf0 (F := F) c hbM0_0) : scM0_0.view.read (Elt F) (X13_0 c fh0) = xOf0 c fh0 :=
  View.read_writes_whole _ _ _

theorem xOf0_entry (c : Dev nD) : xOf0 c (V c main_arg0) = xArr0 V c := rfl

section Body

variable (c : Dev nD) (i : grid0.Coords) (arg3 : Memref sig .tc .vmem S1024x16 .f32) (harg3 : arg3.IsWhole) (arg4 : Memref sig .tc .vmem S1024x1 .f32) (harg4 : arg4.IsWhole) (arg5 : Memref sig .tc .smem S1024 .i32) (harg5 : arg5.IsWhole) (arg6 : Memref sig .tc .vmem S16x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S128x256 .f32) (harg10 : arg10.IsWhole) (arg11 : Memref sig .tc .vmem S256 .f32) (harg11 : arg11.IsWhole) (arg12 : Memref sig .tc .vmem S1024x256 .bf16) (harg12 : arg12.IsWhole)
  (x0 : Vec F S1024x16 .f32) (x1 : Vec F S1024x1 .f32) (x2 : Vec F S1024 .i32) (x3 : Vec F S16x128 .f32) (x4 : Vec F S128 .f32) (x5 : Vec F S128x128 .f32) (x6 : Vec F S128 .f32) (x7 : Vec F S128x256 .f32) (x8 : Vec F S256 .f32)
  (X13 : BufTy.Contents (Elt F) scM0_0.view.ty) (hx2 : ∀ r : S1024.Idx, BitVec.toNat (x2 r) < 50000) (fh0 : HbBuf0 (F := F) c hbM0_0)

def pay15L0 : List (View.Piece (Elt F) S1024x256 .f32) :=
  [⟨Rect.unit (s := S1024x256) ![0, 0] S1024x256.size inb_S1024x256_S1024x256_0_0,
      k0_pay15
        (arg3.view.readAt (Elt F) (Rect.unit (s := S1024x16) ![0, 0] S1024x16.size inb_S1024x16_S1024x16_0_0).toLoadRect (arg3.view.rep x0))
        (arg6.view.readAt (Elt F) (Rect.unit (s := S16x128) ![0, 0] S16x128.size inb_S16x128_S16x128_0_0).toLoadRect (arg6.view.rep x3))
        (arg7.view.readAt (Elt F) (Rect.unit (s := S128) ![0] S128.size inb_S128_S128_0).toLoadRect (arg7.view.rep x4))
        (arg8.view.readAt (Elt F) (Rect.unit (s := S128x128) ![0, 0] S128x128.size inb_S128x128_S128x128_0_0).toLoadRect (arg8.view.rep x5))
        (arg9.view.readAt (Elt F) (Rect.unit (s := S128) ![0] S128.size inb_S128_S128_0).toLoadRect (arg9.view.rep x6))
        (arg4.view.readAt (Elt F) (Rect.unit (s := S1024x1) ![0, 0] S1024x1.size inb_S1024x1_S1024x1_0_0).toLoadRect (arg4.view.rep x1))
        (arg10.view.readAt (Elt F) (Rect.unit (s := S128x256) ![0, 0] S128x256.size inb_S128x256_S128x256_0_0).toLoadRect (arg10.view.rep x7))
        (arg11.view.readAt (Elt F) (Rect.unit (s := S256) ![0] S256.size inb_S256_S256_0).toLoadRect (arg11.view.rep x8))⟩]

def X15_0 : BufTy.Contents (Elt F) scM0_2.view.ty :=
  scM0_2.view.writes (Elt F) scM0_2.view.junk (pay15L0 arg3 arg4 arg6 arg7 arg8 arg9 arg10 arg11 x0 x1 x3 x4 x5 x6 x7 x8)

def L0 : List (View.Piece (Elt F) S1024x256 .bf16) :=
  pbD_k0_t1 (F := F) Variants.none c none i hbM0_0 (Memref.isWhole_whole _) arg3 harg3 arg4 harg4 arg5 harg5 arg6 harg6 arg7 harg7 arg8 harg8 arg9 harg9 arg10 harg10 arg11 harg11 arg12 harg12 scM0_0 (Memref.isWhole_whole _) cc0_scratch1 scM0_2 (Memref.isWhole_whole _)
    (arg5.view.rep x2) X13 (X15_0 arg3 arg4 arg6 arg7 arg8 arg9 arg10 arg11 x0 x1 x3 x4 x5 x6 x7 x8)
    (word_lt0 arg5 x2 hx2)
    k0_t1_loop.trips

set_option maxHeartbeats 4000000 in
/-- The body's triple: the nine inputs `I` are left as found and the output holds the writes `L0`; the scratch `S` ends at `X13`, the feature array's copy where `cond0` holds and what it was elsewhere. -/
theorem kernelRun0 (I S : sProp 𝕄) (hI : I = iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8))
    (hA : cond0 i → (S ⊢ iprop(∃ d, owns (c : Thread nD τ) scM0_0 fullShare d)) ∧ X13 = X13_0 c fh0)
    (hB : ¬ cond0 i → S = iprop(scM0_0.view.loc (c : Thread nD τ) ↦[scM0_0.view.set]{fullShare} X13)) (W : Waits sig Unit) (K : PUnit → sProp 𝕄) :
    iprop(I ∗ (∃ d, owns (c : Thread nD τ) arg12 fullShare d) ∗ S ∗ (∃ d, owns (c : Thread nD τ) scM0_2 fullShare d) ∗ semVal ((c : Thread nD τ), SemLoc.dma 14) 0 ∗ hbPt0 c hbM0_0 fh0 ∗ owes (c : Thread nD τ) 0 W
        ∗ (iprop(I ∗ (∃ f, arg12.view.loc (c : Thread nD τ) ↦[arg12.view.set]{fullShare} arg12.view.writes (Elt F) f (L0 c i arg3 harg3 arg4 harg4 arg5 harg5 arg6 harg6 arg7 harg7 arg8 harg8 arg9 harg9 arg10 harg10 arg11 harg11 arg12 harg12 x0 x1 x2 x3 x4 x5 x6 x7 x8 X13 hx2)) ∗ (scM0_0.view.loc (c : Thread nD τ) ↦[scM0_0.view.set]{fullShare} X13) ∗ (∃ d, owns (c : Thread nD τ) scM0_2 fullShare d) ∗ semVal ((c : Thread nD τ), SemLoc.dma 14) 0 ∗ hbPt0 c hbM0_0 fh0 ∗ (∃ W', owes (c : Thread nD τ) 0 W')) -∗ K ⟨⟩))
      ⊢ wp frame (wpE (defs₀ (F := F)) Variants.none c none) Set.univ (cc0__edge_kernel i hbM0_0 (Memref.isWhole_whole _) arg3 harg3 arg4 harg4 arg5 harg5 arg6 harg6 arg7 harg7 arg8 harg8 arg9 harg9 arg10 harg10 arg11 harg11 arg12 harg12 scM0_0 (Memref.isWhole_whole _) cc0_scratch1 scM0_2 (Memref.isWhole_whole _)) K := by
  subst hI
  simp only [cc0__edge_kernel_eq_skeleton]; unfold cc0__edge_kernel_skel
  rw [owns_eq_rep (c : Thread nD τ) arg3, owns_eq_rep (c : Thread nD τ) arg4, owns_eq_rep (c : Thread nD τ) arg5, owns_eq_rep (c : Thread nD τ) arg6, owns_eq_rep (c : Thread nD τ) arg7, owns_eq_rep (c : Thread nD τ) arg8, owns_eq_rep (c : Thread nD τ) arg9, owns_eq_rep (c : Thread nD τ) arg10, owns_eq_rep (c : Thread nD τ) arg11]
  unfold owns
  have hw := word_lt0 arg5 x2 hx2
  by_cases hc : cond0 i
  on_goal 1 => obtain ⟨hS, rfl⟩ := hA hc; unfold owns at hS
  on_goal 2 => obtain rfl := hB hc
  all_goals iintro ⟨⟨H0, H1, H2, H3, H4, H5, H6, H7, H8⟩, ⟨%d9, %f9, -, H9⟩, HV, ⟨%ds2, %fs2, -, HS2⟩, Hq0, Hh0, HW, Hk⟩
  on_goal 1 => ihave HV := hS $$ HV; icases HV with ⟨%dv, %fv, -, HV⟩
  all_goals
    sl_exec (disch := first | sl_exact hc)
    sl_step
    iapply Hk
    iframe H0 H1 H2 H3 H4 H5 H6 H7 H8 Hh0
    isplitl [H9]; · iexists _; iexact H9
    isplitl [HV]; · iexact HV
    isplitl [HS2]
    · iexists _, _; isplitr; swap; · iexact HS2
      ipureintro; rfl
    isplitl [Hq0]; · iexact Hq0
    iexists _; iexact HW

theorem cover0 (y : S1024x256.Idx) :
    ∃ pc ∈ L0 c i arg3 harg3 arg4 harg4 arg5 harg5 arg6 harg6 arg7 harg7 arg8 harg8 arg9 harg9 arg10 harg10 arg11 harg11 arg12 harg12 x0 x1 x2 x3 x4 x5 x6 x7 x8 X13 hx2, y ∈ pc.1.set :=
  View.cover_of_tiledL (L0 c i arg3 harg3 arg4 harg4 arg5 harg5 arg6 harg6 arg7 harg7 arg8 harg8 arg9 harg9 arg10 harg10 arg11 harg11 arg12 harg12 x0 x1 x2 x3 x4 x5 x6 x7 x8 X13 hx2) S16x256.size (by sl_kernel_rfl) y

theorem read_X15_0 :
    scM0_2.view.read (Elt F) (X15_0 arg3 arg4 arg6 arg7 arg8 arg9 arg10 arg11 x0 x1 x3 x4 x5 x6 x7 x8) = k0_pay15 x0 x3 x4 x5 x6 x1 x7 x8 := by
  unfold X15_0 pay15L0
  rw [View.read_writes_junk_eq_canon, View.canon_unit_zero (by funext a; fin_cases a <;> rfl)]
  simp only [View.readAt_eq_ld, View.read_rep]
  repeat rw [View.ld_unit_zero (by funext a; fin_cases a <;> rfl)]

end Body

def sc0At (c : Dev nD) (t : Fin (cfg0.N + 1)) : sProp 𝕄 :=
  if t = 0 then iprop(∃ d, owns (c : Thread nD τ) scM0_0 fullShare d)
  else iprop(scM0_0.view.loc (c : Thread nD τ) ↦[scM0_0.view.set]{fullShare} X13_0 c (V c main_arg0))

def rest0 (c : Dev nD) : sProp 𝕄 :=
  iprop((∃ d, owns (c : Thread nD τ) scM0_2 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f))

def Phi0 (c : Dev nD) (t : Fin (cfg0.N + 1)) : sProp 𝕄 :=
  iprop(iprop(sc0At V c t ∗ rest0 (F := F) c) ∗ (∃ r, prngReg c r) ∗ iprop(semVal ((c : Thread nD τ), SemLoc.dma 14) 0) ∗ iprop(hbPt0 c hbM0_0 (V c main_arg0)))

theorem PhiD0_eq (c : Dev nD) :
    (Pipeline.ΦD osem0 spec0 H0 V c : sProp 𝕄)
      = iprop(iprop((∃ d, owns (c : Thread nD τ) scM0_0 fullShare d) ∗ rest0 (F := F) c) ∗ (∃ r, prngReg c r) ∗ iprop(semVal ((c : Thread nD τ), SemLoc.dma 14) 0) ∗ iprop(hbPt0 c hbM0_0 (V c main_arg0))) := by
  rw [Pipeline.ΦD_eq, scopedRest0_eq, ownSems00_eq, hbmPts0_eq]; unfold rest0; simp only [scM0_0, scM0_2, owns_whole]; try rfl

theorem Phi0_zero (c : Dev nD) : Phi0 V c 0 = Pipeline.ΦD osem0 spec0 H0 V c := by
  rw [PhiD0_eq]; unfold Phi0 sc0At; rw [if_pos rfl]

theorem sc0At_of_ne (c : Dev nD) (t : Fin (cfg0.N + 1)) (h : t ≠ 0) :
    sc0At V c t = iprop(scM0_0.view.loc (c : Thread nD τ) ↦[scM0_0.view.set]{fullShare} X13_0 c (V c main_arg0)) := by
  unfold sc0At; rw [if_neg h]

theorem sc0At_some (c : Dev nD) (t : Fin (cfg0.N + 1)) : sc0At V c t ⊢ iprop(∃ d, owns (c : Thread nD τ) scM0_0 fullShare d) := by
  unfold sc0At; split
  · exact .rfl
  · iintro H; iexists _; iapply (owns_intro (c : Thread nD τ) scM0_0 fullShare _); iexact H

theorem Phi0_last (c : Dev nD) : Phi0 V c (Fin.last _) ⊢ Pipeline.ΦD osem0 spec0 H0 V c := by
  rw [PhiD0_eq]; unfold Phi0
  iintro ⟨⟨Hs, Hr⟩, Hg, Hq, Hh⟩
  iframe Hr Hg Hq Hh
  iapply (sc0At_some V c _); iexact Hs

abbrev blk0_0 (c : Dev nD) (t : Fin cfg0.N) : Vec F S1024x16 .f32 := iblk0 V c 0 t
abbrev blk0_1 (c : Dev nD) (t : Fin cfg0.N) : Vec F S1024x1 .f32 := iblk0 V c 1 t
abbrev blk0_3 (c : Dev nD) (t : Fin cfg0.N) : Vec F S16x128 .f32 := iblk0 V c 3 t
abbrev blk0_4 (c : Dev nD) (t : Fin cfg0.N) : Vec F S128 .f32 := iblk0 V c 4 t
abbrev blk0_5 (c : Dev nD) (t : Fin cfg0.N) : Vec F S128x128 .f32 := iblk0 V c 5 t
abbrev blk0_6 (c : Dev nD) (t : Fin cfg0.N) : Vec F S128 .f32 := iblk0 V c 6 t
abbrev blk0_7 (c : Dev nD) (t : Fin cfg0.N) : Vec F S128x256 .f32 := iblk0 V c 7 t
abbrev blk0_8 (c : Dev nD) (t : Fin cfg0.N) : Vec F S256 .f32 := iblk0 V c 8 t

abbrev VO0 : View sig .tc .vmem S1024x256 .bf16 := (Memref.whole cc0_stg9_0 : Memref sig .tc .vmem S1024x256 .bf16).view

abbrev L0At (hH : Hyps0 V) (c : Dev nD) (t : Fin cfg0.N) : List (View.Piece (Elt F) S1024x256 .bf16) :=
  L0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (blk0_0 V c t) (blk0_1 V c t) (srcBlk0 V c t) (blk0_3 V c t) (blk0_4 V c t) (blk0_5 V c t) (blk0_6 V c t) (blk0_7 V c t) (blk0_8 V c t) (X13_0 c (V c main_arg0)) (hH c t)

def outAt0 (c : Dev nD) (t : Fin cfg0.N) : Vec F S1024x256 .bf16 :=
  @dite _ (Hyps0 V) (Classical.propDecidable _)
    (fun hH => VO0.read (Elt F) (VO0.writes (Elt F) VO0.junk (L0At V hH c t)))
    (fun _ => VO0.read (Elt F) VO0.junk)

theorem outAt0_eq (hH : Hyps0 V) (c : Dev nD) (t : Fin cfg0.N) :
    outAt0 V c t = VO0.read (Elt F) (VO0.writes (Elt F) VO0.junk (L0At V hH c t)) := by
  unfold outAt0; exact dif_pos hH

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => outAt0 V c t
  Φ := Phi0 V c
  q _ := fullShare
  owed _ := 0

theorem A_eq0 (c : Dev nD) (w : Fin cfg0.W) : (dat0 V c).A w = V c (Pipeline.arrRef spec0 w) := by
  dsimp only [dat0]

theorem after0_9 (c : Dev nD) (t : Fin cfg0.N) : (dat0 V c).after 9 t = outAt0 V c t := by dsimp only [dat0]

theorem before0 (c : Dev nD) : ∀ w : Fin cfg0.W, (cfg0.win w).isOut = false → ∀ t d, (dat0 V c).before w t d = (dat0 V c).after w t
  | ⟨0, _⟩, _ | ⟨1, _⟩, _ | ⟨2, _⟩, _ | ⟨3, _⟩, _ | ⟨4, _⟩, _ | ⟨5, _⟩, _ | ⟨6, _⟩, _ | ⟨7, _⟩, _ | ⟨8, _⟩, _ => fun t d =>
    ((dat0 V c).before_in_eq_fetched _ rfl (fun _ => rfl) (fun _ _ _ => rfl) (fun t => by unfold Dat.blockOf; dsimp only [dat0, iblk0]; try rfl) t d).trans
      (by unfold Dat.fetched Dat.blockOf; dsimp only [dat0, iblk0]; try rfl)
  | ⟨9, _⟩, h => nomatch h

set_option maxHeartbeats 2000000 in
/-- At every point the inputs' buffers hold their blocks and the feature copy is as `kernelRun0` wants it, so the body's triple applies; the writes it leaves cover the output block. -/
theorem body_obligation0 (hH : Hyps0 V) (c : Dev nD) : BodyObligation (dat0 (F := F) V c) (defs₀ (F := F)) Variants.none () Set.univ := fun t => by
  rw [bigSep_W0, bigSep_W0]
  simp (disch := rfl) only [before0 V c]
  dsimp only [dat0]
  rw [outAt0_eq V hH]
  unfold Phi0 rest0 Dat.owesAt Pipeline.owesWithin
  rw [sc0At_of_ne V c t.succ (Fin.succ_ne_zero t)]
  iintro ⟨⟨⟨Hs, HS2, HR⟩, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (kernelRun0 c (grid0.coords t) _ _ _ _ _ _ _ _ _ _ _ _ _ _ _ _ _ _ _ _ _ _ _ _ _ _ _ _ _ (X13_0 c (V c main_arg0)) (hH c t) (V c main_arg0) _ (sc0At V c t.castSucc) rfl
    (fun _ => ⟨sc0At_some V c _, rfl⟩)
    (fun hc => sc0At_of_ne V c _ fun e => hc ((hcond0 t).mpr (by have := congrArg Fin.val e; simp at this; rw [this]))) W _)
  iframe H0 H1 H2 H3 H4 H5 H6 H7 H8 Hs HS2 Hq Hh HW
  isplitl [H9]; · iexists _; iexact H9
  iintro ⟨⟨H0, H1, H2, H3, H4, H5, H6, H7, H8⟩, ⟨%e9, H9⟩, Hs, HS2, Hq, Hh, ⟨%W', HW'⟩⟩
  iframe Hs HS2 HR Hg Hq Hh H0 H1 H2 H3 H4 H5 H6 H7 H8
  isplitl [HW']
  · iexists W'; isplitr; · ipureintro; exact fun _ _ => Or.inl trivial
    iexact HW'
  unfold owns; iexists _; isplitr
  swap; · iexact H9
  ipureintro; exact View.read_writes_of_cover _ _ _ _ _ (cover0 c _ _ _ _ _ _ _ _ _ _ _ _ _ _ _ _ _ _ _ _ _ _ _ _ _ _ _ _ _ _ _ _)

end Cert.KernelIdeal.Hand

end
-- ==== Proof.KI.Reg1.lean ====
import proofs.«420832_j83571473646104_4_alg».proof.Proof.Gen.KernelIdeal.Launch
import proofs.«420832_j83571473646104_4_alg».proof.Proof.Gen.KernelIdeal.Skeleton
import proofs.«420832_j83571473646104_4_alg».proof.Proof.Gen.KernelIdeal.Points
import Idealize.ShloMosaic.Lib.Pipeline.FrameBody
import Idealize.ShloMosaic.Lib.Pipeline.TableIdle
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block of its array at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S2000x256 := Rect.unit (s := S2000x256) ![0, 0] S2000x256.size inb_S2000x256_S2000x256_0_0
abbrev r1_b : Rect S256x256 := Rect.unit (s := S256x256) ![0, 0] S256x256.size inb_S256x256_S256x256_0_0
abbrev r1_c : Rect S256 := Rect.unit (s := S256) ![0] S256.size inb_S256_S256_0

/-- The output block as a function of the eight input blocks: one store over the whole block. -/
def out1_8 (x0 : Vec F S2000x256 .f32) (x1 : Vec F S2000x256 .f32) (x2 : Vec F S256x256 .f32) (x3 : Vec F S256 .f32) (x4 : Vec F S256 .f32) (x5 : Vec F S256 .f32) (x6 : Vec F S256x256 .f32) (x7 : Vec F S256 .f32) : Vec F S2000x256 .f32 :=
  View.canon [⟨r1_a, k1_pay1 (k1_pay2 (View.ld x0 r1_a) (View.ld x1 r1_a) (View.ld x2 r1_b) (View.ld x3 r1_c) (View.ld x4 r1_c) (View.ld x5 r1_c) (View.ld x6 r1_b)) (View.ld x7 r1_c)⟩]

/-- The body reads the eight inputs `I`, leaves them as they were, and stores `out1_8` of them over the whole output. -/
theorem sound_kernel1 (c : Dev nD) (E : Set ℕ) (i : grid1.Coords) {a1 a2 a9 : Memref sig .tc .vmem S2000x256 .f32} {a3 a7 : Memref sig .tc .vmem S256x256 .f32}
    {a4 a5 a6 a8 : Memref sig .tc .vmem S256 .f32} (h1 : a1.IsWhole) (h2 : a2.IsWhole) (h3 : a3.IsWhole) (h4 : a4.IsWhole) (h5 : a5.IsWhole)
    (h6 : a6.IsWhole) (h7 : a7.IsWhole) (h8 : a8.IsWhole) (h9 : a9.IsWhole) (x0 x1 : Vec F S2000x256 .f32) (x2 x6 : Vec F S256x256 .f32)
    (x3 x4 x5 x7 : Vec F S256 .f32) (K : PUnit → sProp 𝕄) (I : sProp 𝕄)
    (hI : I = iprop(owns c.tc a1 fullShare x0 ∗ owns c.tc a2 fullShare x1 ∗ owns c.tc a3 fullShare x2 ∗ owns c.tc a4 fullShare x3 ∗ owns c.tc a5 fullShare x4 ∗ owns c.tc a6 fullShare x5 ∗ owns c.tc a7 fullShare x6 ∗ owns c.tc a8 fullShare x7)) :
    iprop((∃ d, owns c.tc a9 fullShare d) ∗ I ∗ (I ∗ owns c.tc a9 fullShare (out1_8 x0 x1 x2 x3 x4 x5 x6 x7) -∗ K ⟨⟩))
      ⊢ wp frame (wpE (defs₀ (F := F)) Variants.none c none) E (cc1__post_kernel i a1 h1 a2 h2 a3 h3 a4 h4 a5 h5 a6 h6 a7 h7 a8 h8 a9 h9) K := by
  subst hI
  simp only [cc1__post_kernel_eq_skeleton]; unfold cc1__post_kernel_skel
  simp only [k1_part1_eq_skeleton]; unfold k1_part1_skel
  rw [owns_eq_rep c.tc a1, owns_eq_rep c.tc a2, owns_eq_rep c.tc a3, owns_eq_rep c.tc a4, owns_eq_rep c.tc a5, owns_eq_rep c.tc a6, owns_eq_rep c.tc a7, owns_eq_rep c.tc a8]
  unfold owns
  iintro ⟨⟨%d, %f, -, H9⟩, ⟨H1, H2, H3, H4, H5, H6, H7, H8⟩, Hk⟩
  sl_exec
  sl_step
  iapply Hk
  iframe H1 H2 H3 H4 H5 H6 H7 H8
  iexists _; isplitr
  swap; · iexact H9
  ipureintro
  simp only [View.readAt_rep]
  exact View.read_writes_eq_canon _ _ _ (View.cover_of_tiled _ S2000x256.size (by rfl))

/-- The node region's proof data on core `c`: the arrays as entered; the body leaves each input's block in place and `out1_8` of them in the output. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]

/-- What the body finds in an input window's buffer is what it leaves there: the window's block at the point. -/
theorem before1 (c : Dev nD) : ∀ w : Fin cfg1.W, (cfg1.win w).isOut = false → ∀ t d, (dat1 V c).before w t d = (dat1 V c).after w t
  | ⟨0, _⟩, _ | ⟨1, _⟩, _ | ⟨2, _⟩, _ | ⟨3, _⟩, _ | ⟨4, _⟩, _ | ⟨5, _⟩, _ | ⟨6, _⟩, _ | ⟨7, _⟩, _ => fun t d =>
    ((dat1 V c).before_in_eq_fetched _ rfl (fun _ => rfl) (fun _ _ _ => rfl) (fun t => by unfold Dat.blockOf; dsimp only [dat1, iblk1]; try rfl) t d).trans
      (by unfold Dat.fetched Dat.blockOf; dsimp only [dat1, iblk1]; try rfl)
  | ⟨8, _⟩, h => nomatch h

/-- At every point the inputs' buffers hold their blocks, so the body's triple applies; the invariant and what the core owes pass through. -/
theorem body_obligation1 (c : Dev nD) : BodyObligation (dat1 (F := F) V c) (defs₀ (F := F)) Variants.none () Set.univ := fun t => by
  rw [bigSep_W1, bigSep_W1]
  simp (disch := rfl) only [before1 V c]
  dsimp only [dat1]
  iintro ⟨HΦ, Ho, ⟨%_, H0⟩, ⟨%_, H1⟩, ⟨%_, H2⟩, ⟨%_, H3⟩, ⟨%_, H4⟩, ⟨%_, H5⟩, ⟨%_, H6⟩, ⟨%_, H7⟩, %_, H8⟩
  iapply sound_kernel1 c Set.univ (grid1.coords t) (hI := rfl)
  isplitl [H8]; · iexists _; iexact H8
  iframe H0 H1 H2 H3 H4 H5 H6 H7
  iintro ⟨⟨H0, H1, H2, H3, H4, H5, H6, H7⟩, H8⟩
  iframe HΦ H0 H1 H2 H3 H4 H5 H6 H7 H8
  iexact Ho

end Cert.KernelIdeal.Hand

end
-- ==== Proof.KI.HypsOfPre.lean ====
import proofs.«420832_j83571473646104_4_alg».proof.Proof.Gen.KernelIdeal.Regions
import proofs.«420832_j83571473646104_4_alg».proof.Proof.Gen.Pre_finite_inputs
import Idealize.ShloMosaic.Lib.ReduceAll
import Idealize.ShloMosaic.Lib.StableHlo.Run
import Idealize.ShloMosaic.Lib.KernelVsHost

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx

variable {F : FTy → Type} [FloatOps F]

/-- A word in [0, 50000) read signed is below 50000 read unsigned. -/
theorem toNat_lt_of_signed_range (w : BitVec 32) (h0 : 0 ≤ w.toInt) (h1 : w.toInt < 50000) : w.toNat < 50000 := by
  have h32 := w.isLt
  rw [BitVec.toInt_eq_toNat_cond] at h0 h1
  split at h0 <;> omega

/-- Entry `e` of row 0 of the edge index, sliced out and reshaped to a vector, is entry (0, e). -/
theorem row0_apply (a1 : S2x800000.Idx → BitVec 32) (e : Fin 800000) :
    shapeCast S800000 (extractStridedSlice S1x800000 ![0, 0] a1 Gen.slices_S2x800000_S1x800000_0_0)
      Gen.shapeCasts_S1x800000_S800000 (ix1 e) = a1 (ix2 (0 : Fin 2) e) := by
  refine (shapeCast_apply _ _ (ix1 e) (ix2 (0 : Fin 1) e) ?_).trans ?_
  · rw [Shape.rowMajor_val_two, Shape.rowMajor_val_one]
    show 0 * 800000 + e.val = e.val
    omega
  · refine extractStridedSlice_apply _ _ _ _ _ ?_
    intro a
    match a with
    | ⟨0, _⟩ => rfl
    | ⟨1, _⟩ => show e.val = 0 + e.val; omega

/-- The precondition's last conjunct is the conjunction over the edges of 0 ≤ src[e] and src[e] < 50000, both signed. -/
theorem src_range_of_fn {a0 a1 a2 a3 a4 a5 a6 a7 a8 a9 a10 a11 a12 a13 a14}
    (h : Cert.Pre_finite_inputs.fn (F := F) a0 a1 a2 a3 a4 a5 a6 a7 a8 a9 a10 a11 a12 a13 a14 = fun _ => 1#1)
    (e : Fin 800000) : 0 ≤ (a1 (ix2 (0 : Fin 2) e)).toInt ∧ (a1 (ix2 (0 : Fin 2) e)).toInt < 50000 := by
  have h0 := congrFun h ix0
  dsimp only [Cert.Pre_finite_inputs.fn, Cert.Pre_finite_inputs.fn_part1, Cert.Pre_finite_inputs.fn_part2,
    Cert.Pre_finite_inputs.fn_part3, Cert.Pre_finite_inputs.fn_part4] at h0
  haveI : Subsingleton Cert.Pre_finite_inputs.S_.Idx := ⟨fun a b => funext fun d => d.elim0⟩
  obtain ⟨hge, hlt⟩ := IntOp.andi_eq_one.1 (show IntOp.andi _ _ = 1#1 from
    Host.reduce_andi_all _ _ _ _ _ (IntOp.andi_eq_one.1 (show IntOp.andi _ _ = 1#1 from h0)).2 (ix1 e))
  have hge' : IntOp.cmpi .sge (a1 (ix2 (0 : Fin 2) e)) (0#32) = 1#1 := by rw [← row0_apply a1 e]; exact hge
  have hlt' : IntOp.cmpi .slt (a1 (ix2 (0 : Fin 2) e)) (50000#32) = 1#1 := by rw [← row0_apply a1 e]; exact hlt
  rw [IntOp.cmpi_sge] at hge'
  rw [IntOp.cmpi_slt] at hlt'
  exact ⟨hge', hlt'⟩

section
variable (m : (ℓ : Loc nD τ sig) → Buf (Elt F) ℓ)

/-- The vector the edge region reads is row 0 of the edge index padded with the word 0, so its words are below 50000 when row 0's are. -/
theorem V10_main_v7_lt (c : Dev nD)
    (hsrc : ∀ e : Fin 800000, ((m ((c.tc : Thread nD τ).loc main_arg1) : S2x800000.Idx → BitVec 32) (ix2 (0 : Fin 2) e)).toNat < 50000)
    (e : Fin 800768) : ((V10 m c main_v7 : S800768.Idx → BitVec 32) (ix1 e)).toNat < 50000 := by
  have e4 : (V10 m c main_v7 : S800768.Idx → BitVec 32) =
      pad S800768 ![0] ![768] ![0] (V3 m c main_v1 : S800000.Idx → BitVec 32) (V3 m c main_c : S_.Idx → BitVec 32)
        Gen.pads_S800000_S800768_07680 Gen.h_S_ :=
    ((V10_of m c main_v7 (by decide)).trans <| (V9_of m c main_v7 (by decide)).trans <| (V8_of m c main_v7 (by decide)).trans <|
      (V7_of m c main_v7 (by decide)).trans <| (V6_of m c main_v7 (by decide)).trans (V5_of m c main_v7 (by decide))).trans (by
    show StableHlo.after hostOps0_3 (V3 m c) (Proc.devRef .tc main_v7) = _
    after_results
    rfl)
  rw [e4]
  by_cases he : e.val < 800000
  · have e1 : (V3 m c main_v1 : S800000.Idx → BitVec 32) =
        shapeCast S800000 (extractStridedSlice S1x800000 ![0, 0] (m ((c.tc : Thread nD τ).loc main_arg1) : S2x800000.Idx → BitVec 32)
          Gen.slices_S2x800000_S1x800000_0_0) Gen.shapeCasts_S1x800000_S800000 :=
      ((V3_of m c main_v1 (by decide)).trans (V2_of m c main_v1 (by decide))).trans (by
        show StableHlo.after hostOps0 (V0 m c) (Proc.devRef .tc main_v1) = _
        after_results
        rfl)
    rw [pad_apply_of_inside _ _ _ _ _ _ _ (ix1 e) (ix1 (⟨e.val, he⟩ : Fin 800000)) (by
      intro a
      match a with
      | ⟨0, _⟩ => show e.val = 0 + e.val * (0 + 1); omega), e1, row0_apply]
    exact hsrc _
  · have ec : (V3 m c main_c : S_.Idx → BitVec 32) = constantI S_ 32 0#32 := by
      show StableHlo.after hostOps0_2 (V2 m c) (Proc.devRef .tc main_c) = _
      after_results
    rw [pad_apply_of_not_inside _ _ _ _ _ _ _ (ix1 e) (0 : Fin 1) (by
      intro hin
      have h3 : (e.val - 0) / (0 + 1) < 800000 := hin.2.2
      omega), ec]
    show (0#32 : BitVec 32).toNat < 50000
    decide

/-- The precondition's function is all ones on every device's argument arrays. -/
abbrev PreAt : Prop :=
  ∀ c : Dev nD,
    Cert.Pre_finite_inputs.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)) (m ((c.tc : Thread nD τ).loc main_arg13))
      (m ((c.tc : Thread nD τ).loc main_arg14)) = (fun _ => 1#1)

theorem src_range_of_pre (h : PreAt m) (c : Dev nD) (e : Fin 800000) :
    0 ≤ ((m ((c.tc : Thread nD τ).loc main_arg1) : S2x800000.Idx → BitVec 32) (ix2 (0 : Fin 2) e)).toInt
      ∧ ((m ((c.tc : Thread nD τ).loc main_arg1) : S2x800000.Idx → BitVec 32) (ix2 (0 : Fin 2) e)).toInt < 50000 :=
  src_range_of_fn (h c) e

/-- Under the precondition every word of every block of the padded source vector, as the edge region finds it, is below 50000. -/
theorem hyps0_of_pre (h : PreAt m) (c : Dev nD) (t : Fin cfg0.N) (r : S1024.Idx) :
    BitVec.toNat ((((cfg0.win 2).blk t).view.read (Elt F)
      ((fun (c : Dev nD) (b : Ref sig .tc) => (V10 m c b : Buf (Elt F) ((c : Thread nD τ).loc b))) c (Pipeline.arrRef spec0 2))
        : S1024.Idx → BitVec 32) r) < 50000 := by
  rw [View.read_apply]
  generalize View.emb _ r = j
  rw [eq_ix1 j]
  exact V10_main_v7_lt m c (fun e => toNat_lt_of_signed_range _ (src_range_of_pre m h c e).1 (src_range_of_pre m h c e).2) _

end

end Cert.KernelIdeal.Hand

end
-- ==== Proof.KI.Run.lean ====
import proofs.«420832_j83571473646104_4_alg».proof.Proof.KI.Reg0
import proofs.«420832_j83571473646104_4_alg».proof.Proof.KI.Reg1
import proofs.«420832_j83571473646104_4_alg».proof.Proof.KI.HypsOfPre
import proofs.«420832_j83571473646104_4_alg».proof.Proof.Gen.KernelIdeal.Launch
import proofs.«420832_j83571473646104_4_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev WA (c : Dev nD) : Valuation τ sig (Elt F) := Gen.V10 m c

abbrev VA : (c : Dev nD) → (b : Ref sig .tc) → Buf (Elt F) ((c : Thread nD τ).loc b) := fun c b => WA m c b

def WB (c : Dev nD) : Valuation τ sig (Elt F) :=
  Pipeline.withArrays spec0 c (WA m c) fun w => (dat0 (VA m) c).arrAt w cfg0.N
theorem WB_arr (c : Dev nD) (w : Fin cfg0.W) :
    WB m c (Proc.devRef .tc (Pipeline.arrRef spec0 w)) = (dat0 (VA m) c).arrAt w cfg0.N := by
  unfold WB; exact Pipeline.withArrays_arr spec0 launch0.win.arr_inj c _ _ w
theorem WB_of_ne (c : Dev nD) (b : Ref sig .tc) (hb : ∀ w, Pipeline.arrRef spec0 w ≠ b) :
    WB m c (Proc.devRef .tc b) = WA m c (Proc.devRef .tc b) := by
  unfold WB; exact Pipeline.withArrays_of_ne spec0 c _ _ b hb
abbrev VB : (c : Dev nD) → (b : Ref sig .tc) → Buf (Elt F) ((c : Thread nD τ).loc b) := fun c b => WB m c b
abbrev WC (c : Dev nD) : Valuation τ sig (Elt F) := StableHlo.after hostOps1 (WB m c)
abbrev VC : (c : Dev nD) → (b : Ref sig .tc) → Buf (Elt F) ((c : Thread nD τ).loc b) := fun c b => WC m c b
theorem WC_of (c : Dev nD) (r : Ref sig .tc) (h : r ∉ hostOps1_W) : WC m c r = WB m c r :=
  StableHlo.after_of_writes_sub hostOps1 _ hostOps1_writes h

def WD (c : Dev nD) : Valuation τ sig (Elt F) :=
  Pipeline.withArrays spec1 c (WC m c) fun w => (dat1 (VC m) c).arrAt w cfg1.N
theorem WD_arr (c : Dev nD) (w : Fin cfg1.W) :
    WD m c (Proc.devRef .tc (Pipeline.arrRef spec1 w)) = (dat1 (VC m) c).arrAt w cfg1.N := by
  unfold WD; exact Pipeline.withArrays_arr spec1 launch1.win.arr_inj c _ _ w
theorem WD_of_ne (c : Dev nD) (b : Ref sig .tc) (hb : ∀ w, Pipeline.arrRef spec1 w ≠ b) :
    WD m c (Proc.devRef .tc b) = WC m c (Proc.devRef .tc b) := by
  unfold WD; exact Pipeline.withArrays_of_ne spec1 c _ _ b hb
abbrev VD : (c : Dev nD) → (b : Ref sig .tc) → Buf (Elt F) ((c : Thread nD τ).loc b) := fun c b => WD m c b

theorem WA_arg (c : Dev nD) (r : Ref sig .tc) (h0 : r ∉ hostOps0_W) (h1 : r ∉ hostOps0_1_W) (h2 : r ∉ hostOps0_2_W) (h3 : r ∉ hostOps0_3_W)
    (h4 : r ∉ hostOps0_4_W) (h5 : r ∉ hostOps0_5_W) (h6 : r ∉ hostOps0_6_W) (h7 : r ∉ hostOps0_7_W) (h8 : r ∉ hostOps0_8_W) (h9 : r ∉ hostOps0_9_W) :
    WA m c r = m ((c : Thread nD τ).loc r) :=
  (Gen.V10_of m c r h9).trans <| (Gen.V9_of m c r h8).trans <| (Gen.V8_of m c r h7).trans <| (Gen.V7_of m c r h6).trans <| (Gen.V6_of m c r h5).trans <|
    (Gen.V5_of m c r h4).trans <| (Gen.V4_of m c r h3).trans <| (Gen.V3_of m c r h2).trans <| (Gen.V2_of m c r h1).trans <| (Gen.V1_of m c r h0).trans rfl

/-- A buffer that no host operation writes and that is no output window's array of either region ends as launched. -/
theorem WD_arg (c : Dev nD) (r : Ref sig .tc) (h1 : ∀ w, Pipeline.arrRef spec1 w = r → (cfg1.win w).isOut = false) (hh : r ∉ hostOps1_W)
    (hw : ∀ w, Pipeline.arrRef spec0 w = r → (cfg0.win w).isOut = false) (h0 : r ∉ hostOps0_W) (h1' : r ∉ hostOps0_1_W) (h2 : r ∉ hostOps0_2_W)
    (h3 : r ∉ hostOps0_3_W) (h4 : r ∉ hostOps0_4_W) (h5 : r ∉ hostOps0_5_W) (h6 : r ∉ hostOps0_6_W) (h7 : r ∉ hostOps0_7_W) (h8 : r ∉ hostOps0_8_W)
    (h9 : r ∉ hostOps0_9_W) : WD m c (Proc.devRef .tc r) = m ((c : Thread nD τ).loc r) := by
  have eD : WD m c (Proc.devRef .tc r) = WC m c (Proc.devRef .tc r) := by
    by_cases hr : ∃ w, Pipeline.arrRef spec1 w = r
    · obtain ⟨w, rfl⟩ := hr
      exact (WD_arr m c w).trans (((dat1 (VC m) c).arrAt_in w (h1 w rfl) _).trans (A_eq1 (VC m) c w))
    · exact WD_of_ne m c r fun w e => hr ⟨w, e⟩
  have eB : WB m c (Proc.devRef .tc r) = WA m c (Proc.devRef .tc r) := by
    by_cases hr : ∃ w, Pipeline.arrRef spec0 w = r
    · obtain ⟨w, rfl⟩ := hr
      exact (WB_arr m c w).trans (((dat0 (VA m) c).arrAt_in w (hw w rfl) _).trans (A_eq0 (VA m) c w))
    · exact WB_of_ne m c r fun w e => hr ⟨w, e⟩
  exact eD.trans <| (WC_of m c r hh).trans <| eB.trans (WA_arg m c r h0 h1' h2 h3 h4 h5 h6 h7 h8 h9)

theorem hyps_of_pre (h : PreAt m) : Hyps0 (VA m) := by
  intro c t r
  unfold srcBlk0 iblk0
  exact hyps0_of_pre m h c t r

abbrev adm : (p : Fin 2) → (pcfgs (F := F) p).Adm := fun p => (cfgs p).toPCfg_adm

def pdats : (p : Fin 2) → (c : Dev nD) → Dat τ (Elt F) Unit ℕ (Pipeline.UD sig nD τ) ℕ (Pipeline.pin (pcfgs (F := F)) adm p) c
  | ⟨0, _⟩ => fun c => dat0 (VA m) c
  | ⟨1, _⟩ => fun c => dat1 (VC m) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (WD m c) ∗ ∃ r, prngReg c r)

/-- The buffers of `S` at their contents when the edge region is entered. -/
abbrev own0 (S : Finset (Ref sig .tc)) (c : Dev nD) : sProp 𝕄 := bigSep S fun b => ((c : Thread nD τ).loc b) ↦{fullShare} VA m c b

/-- The edge region's buffers outside its windows' arrays split into `H0` and the rest. -/
theorem rest0_split (c : Dev nD) : (Pipeline.unscopedRest (Ix := Unit) (Name := ℕ) (U := Pipeline.UD sig nD τ) (Lvl := ℕ) spec0 c (VA m c) : sProp 𝕄)
    = iprop(own0 m H0 c ∗ own0 m (Pipeline.restRefs sig spec0 \ H0) c) := by
  unfold Pipeline.unscopedRest; exact BI.bigSep_sdiff_split H0_sub

/-- The edge region as a segment from the contents `WA` to `WB`. -/
def reg0 (hH : Hyps0 (VA m)) : Pipeline.RegionSeg (pcfgs (F := F)) adm (pdats m) () defs₀ 𝒱₀ L lv 0 where
  win := launch0.win.to₀
  block_pos := launch0.block_pos
  stage_whole := launch0.stage_whole
  K := Fin 1
  osem := osem0
  ho := ownSemFacts0
  hbody c := (body_obligation0 (VA m) hH c).loose
  hwaits := Pipeline.hwaits_of_owed_zero _ _ _ _ L lv 0 fun _ _ => rfl
  pre c := iprop(StableHlo.held (c : Thread nD τ) (Pipeline.ucRefs τ sig) (WA m c) ∗ R c)
  post c := iprop(StableHlo.held (c : Thread nD τ) (Pipeline.ucRefs τ sig) (WB m c) ∗ R c)
  X c := iprop((∃ r, prngReg c r) ∗ Pipeline.ownSems0 (Ix := Unit) (Name := ℕ) (U := Pipeline.UD sig nD τ) (Lvl := ℕ) (Val := Elt F) (τ := τ) osem0 c ∗ own0 m H0 c)
  Y c := iprop((∃ r, prngReg c r) ∗ own0 m H0 c)
  Z c := own0 m (Pipeline.restRefs sig spec0 \ H0) c
  hentry c := by
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, %W, HO⟩, Hos, -⟩
    ihave ⟨Ha, Hrest⟩ := hsplit $$ Hub
    ihave ⟨HH, HR⟩ := (Entails.of_eq (rest0_split m c)) $$ Hrest
    imodintro
    iframe Ha Hp Hos HH HR
    isplitr; · unfold Pipeline.prefHeld; rw [show (Finset.univ : Finset (Fin 0)) = ∅ from rfl, BI.bigSep_empty]; iempintro
    iexists W; isplitr; · ipureintro; exact fun _ _ => Or.inl trivial
    iexact HO
  hin c := by
    rw [show (pdats m 0 c).Φ 0 = Phi0 (VA m) c 0 from rfl, Phi0_zero, Pipeline.ΦD_eq]
    iintro ⟨⟨Hp, Ho, HH⟩, -, Hr⟩
    iframe Hr Hp Ho HH
  hout c := by
    rw [show (pdats m 0 c).Φ (Fin.last _) = Phi0 (VA m) c (Fin.last _) from rfl]
    refine (Phi0_last (VA m) c).trans ?_
    rw [Pipeline.ΦD_eq]
    iintro ⟨Hr, Hp, Ho, HH⟩
    iframe Hr Hp Ho HH
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (VA m c) (VB m c) ((pdats m 0 c).arrAt · cfg0.N) (fun w => (WB_arr m c w).symm)
      fun b hb => WB_of_ne m c b fun w e => hb (Finset.mem_image.mpr ⟨w, Finset.mem_univ _, e⟩)
    rw [Pipeline.unscopedBufs_held] at hjoin
    iintro ⟨Ha, ⟨%W, -, HO⟩, ⟨HY, HH⟩, HR⟩
    ihave Hrest := (Entails.of_eq (rest0_split m c).symm) $$ [HH HR]
    · iframe HH HR
    imodintro
    isplitl [Ha Hrest]
    · iapply hjoin; iframe Ha Hrest
    isplitl [HY]; · iexact HY
    iexists W; iexact HO

/-- The node region as a segment from the contents `WC` to `WD`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VC m) c).loose
  hwaits := Pipeline.hwaits_of_owed_zero _ _ _ _ L lv 1 fun _ _ => rfl
  pre c := iprop(StableHlo.held (c : Thread nD τ) (Pipeline.ucRefs τ sig) (WC m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (VC m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VC m c) fun _ => rfl
    rw [Pipeline.unscopedBufs_held] at hsplit
    iintro ⟨⟨Hub, Hp, %W, HO⟩, -, -⟩
    ihave ⟨Ha, Hrest⟩ := hsplit $$ Hub
    imodintro
    iframe Ha Hp Hrest
    isplitr; · unfold Pipeline.prefHeld; rw [show (Finset.univ : Finset (Fin 0)) = ∅ from rfl, BI.bigSep_empty]; iempintro
    iexists W; isplitr; · ipureintro; exact fun _ _ => Or.inl trivial
    iexact HO
  hin c := by
    rw [show (pdats m 1 c).Φ 0 = Pipeline.ΦA spec1 c from rfl]; unfold Pipeline.ΦA
    iintro ⟨Hp, -, Hr⟩
    iframe Hr Hp
  hout c := by
    rw [Pipeline.ownSems0_none, show (pdats m 1 c).Φ (Fin.last _) = Pipeline.ΦA spec1 c from rfl]; unfold Pipeline.ΦA
    iintro ⟨Hr, Hp⟩
    iframe Hp Hr
    iempintro
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (VC m c) (VD m c) ((pdats m 1 c).arrAt · cfg1.N) (fun w => (WD_arr m c w).symm)
      fun b hb => WD_of_ne m c b fun w e => hb (Finset.mem_image.mpr ⟨w, Finset.mem_univ _, e⟩)
    rw [Pipeline.unscopedBufs_held] at hjoin
    iintro ⟨Ha, ⟨%W, -, HO⟩, HY, Hrest⟩
    imodintro
    isplitl [Ha Hrest HY]
    · isplitl [Ha Hrest]
      · iapply hjoin; iframe Ha Hrest
      iexact HY
    iexists W; iexact HO

abbrev segs (hH : Hyps0 (VA m)) : List (Pipeline.Seg (pcfgs (F := F)) adm (pdats m) () defs₀ 𝒱₀ L lv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .host (hseg hostOps0_3 hostOps0_3_sub hostOps0_3_fresh (Gen.V3 m)),
    .host (hseg hostOps0_4 hostOps0_4_sub hostOps0_4_fresh (Gen.V4 m)),
    .host (hseg hostOps0_5 hostOps0_5_sub hostOps0_5_fresh (Gen.V5 m)),
    .host (hseg hostOps0_6 hostOps0_6_sub hostOps0_6_fresh (Gen.V6 m)),
    .host (hseg hostOps0_7 hostOps0_7_sub hostOps0_7_fresh (Gen.V7 m)),
    .host (hseg hostOps0_8 hostOps0_8_sub hostOps0_8_fresh (Gen.V8 m)),
    .host (hseg hostOps0_9 hostOps0_9_sub hostOps0_9_fresh (Gen.V9 m)),
    .region (reg0 m hH),
    .host (hseg hostOps1 hostOps1_sub hostOps1_fresh (WB m)),
    .region (reg1 m) ]

theorem run_all (hH : Hyps0 (VA m)) : θ_run defs (onTc (τ := τ) (main (F := F))) ⟨m, fun _ => 0, ρ⟩
    (fun r => ∀ c : Dev nD, ∀ b ∈ Pipeline.ucRefs τ sig, r.2.mem (((c : Thread nD τ)).1, b) = WD m c b) :=
  Pipeline.θ_run_regions_kit (pcfgs (F := F)) adm (pdats m) () cellOf_inj embL defs₀ 𝒱₀ L lv m ρ main (segs m hH)
    (fun c Q => by
      rewrite [main_chain c, Pipeline.Seg.run_eq_chain]
      exact .rfl)
    (by simp only [segs, Pipeline.Seg.pipes_host, Pipeline.Seg.pipes_region, Pipeline.Seg.pipes_nil]; decide)
    (O₀ := 0) (hL := fun _ _ => rfl) (G := fun _ => iprop(emp))
    (u₀ := (Rounds.initOf (Pipeline.cells cfgs cellOf_inj) (Pipeline.launchToks cfgs cellOf_inj), 1))
    (hu₀ := by
      iintro Hu
      ihave ⟨HP, -⟩ := (ownU_pair _ _) $$ Hu
      imodintro
      iframe HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      iframe Hh
      isplitl [Hp]; · iexists _; iexact Hp
      iexists ∅; iexact HO)
    (QY := fun c s => ∀ b ∈ Pipeline.ucRefs τ sig, s.mem (((c : Thread nD τ)).1, b) = WD m c b)
    (hfin := fun c s' => by
      iintro ⟨⟨Hh, -⟩, HSI⟩
      unfold StableHlo.held
      imodintro
      iapply (pointsTo_read_all (Pipeline.ucRefs τ sig) (fun b => (((c : Thread nD τ)).1, b)) (WD m c) s')
      iframe Hh HSI)
    (hQ := fun s h c => h c)

/-- Every argument array holds in `mem` what it held at launch. -/
abbrev ArgsKept (mem : (ℓ : Loc nD τ sig) → Buf (Elt F) ℓ) (c : Dev nD) : Prop :=
  mem ((c.tc : Thread nD τ).loc main_arg0) = m ((c.tc : Thread nD τ).loc main_arg0)
    ∧ mem ((c.tc : Thread nD τ).loc main_arg1) = m ((c.tc : Thread nD τ).loc main_arg1)
    ∧ mem ((c.tc : Thread nD τ).loc main_arg2) = m ((c.tc : Thread nD τ).loc main_arg2)
    ∧ mem ((c.tc : Thread nD τ).loc main_arg3) = m ((c.tc : Thread nD τ).loc main_arg3)
    ∧ mem ((c.tc : Thread nD τ).loc main_arg4) = m ((c.tc : Thread nD τ).loc main_arg4)
    ∧ mem ((c.tc : Thread nD τ).loc main_arg5) = m ((c.tc : Thread nD τ).loc main_arg5)
    ∧ mem ((c.tc : Thread nD τ).loc main_arg6) = m ((c.tc : Thread nD τ).loc main_arg6)
    ∧ mem ((c.tc : Thread nD τ).loc main_arg7) = m ((c.tc : Thread nD τ).loc main_arg7)
    ∧ mem ((c.tc : Thread nD τ).loc main_arg8) = m ((c.tc : Thread nD τ).loc main_arg8)
    ∧ mem ((c.tc : Thread nD τ).loc main_arg9) = m ((c.tc : Thread nD τ).loc main_arg9)
    ∧ mem ((c.tc : Thread nD τ).loc main_arg10) = m ((c.tc : Thread nD τ).loc main_arg10)
    ∧ mem ((c.tc : Thread nD τ).loc main_arg11) = m ((c.tc : Thread nD τ).loc main_arg11)
    ∧ mem ((c.tc : Thread nD τ).loc main_arg12) = m ((c.tc : Thread nD τ).loc main_arg12)
    ∧ mem ((c.tc : Thread nD τ).loc main_arg13) = m ((c.tc : Thread nD τ).loc main_arg13)
    ∧ mem ((c.tc : Thread nD τ).loc main_arg14) = m ((c.tc : Thread nD τ).loc main_arg14)

/-- The run with the result named: the result buffer ends at the node region's output array, the arguments as launched. -/
theorem run_result (hH : Hyps0 (VA m)) : θ_run defs (onTc (τ := τ) (main (F := F))) ⟨m, fun _ => 0, ρ⟩ (fun r => ∀ c : Dev nD,
      r.2.mem ((c.tc : Thread nD τ).loc main_v16) = (dat1 (VC m) c).arrAt 8 cfg1.N ∧ ArgsKept m r.2.mem c) :=
  (θ_run defs _ _).mono (fun r h c => by
    refine ⟨(h c _ (mem_uc main_v16 (by decide))).trans (WD_arr m c 8), ?_⟩
    and_intros <;> exact (h c _ (mem_uc _ (by decide))).trans (WD_arg m c _ (by decide) (by decide) (by decide) (by decide) (by decide) (by decide)
      (by decide) (by decide) (by decide) (by decide) (by decide) (by decide) (by decide))) (run_all m ρ hH)

/-- The frame: under the range fact the program runs and every argument array ends as launched. -/
theorem frame (hH : Hyps0 (VA m)) : θ_run defs (onTc (τ := τ) (main (F := F))) ⟨m, fun _ => 0, ρ⟩ (fun r => ∀ c : Dev nD, ArgsKept m r.2.mem c) :=
  (θ_run defs _ _).mono (fun r h c => (h c).2) (run_result m ρ hH)

end Cert.KernelIdeal.Hand

end
-- ==== Proof.KB.LoopD.lean ====
import proofs.«420832_j83571473646104_4_alg».proof.Proof.Gen.Kernel.Loops
import Idealize.ShloMosaic.Lib.Pipeline.Frame

set_option maxRecDepth 8192
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev TripD_k0_t1 (c : Dev nD) (arg5 : Memref sig .tc .smem S1024 .i32) (arg13 : Memref sig .tc .vmem S50000x256 .f32) (arg15 : Memref sig .tc .vmem S1024x256 .f32) (arg12 : Memref sig .tc .vmem S1024x256 .bf16) (X_arg5 : BufTy.Contents (Elt F) arg5.view.ty) (X_arg13 : BufTy.Contents (Elt F) arg13.view.ty) (X_arg15 : BufTy.Contents (Elt F) arg15.view.ty) (f_arg12 : BufTy.Contents (Elt F) arg12.view.ty) : sProp 𝕄 :=
  iprop((arg5.view.loc (c : Thread nD τ) ↦[arg5.view.set]{fullShare} X_arg5) ∗ (arg13.view.loc (c : Thread nD τ) ↦[arg13.view.set]{fullShare} X_arg13) ∗ (arg15.view.loc (c : Thread nD τ) ↦[arg15.view.set]{fullShare} X_arg15) ∗ (arg12.view.loc (c : Thread nD τ) ↦[arg12.view.set]{fullShare} f_arg12))

/-- A source word below the node count addresses a whole row of the 50000 × 256 table. -/
theorem chk_of_lt (v : BitVec 32) (h : v.toNat < 50000) (a : Fin 2) :
    (![(Scalar.indexCast v).toNat, 0] : Fin 2 → ℕ) a + S1x256.size a ≤ S50000x256.size a := by
  fin_cases a
  · show (Scalar.indexCast v).toNat + 1 ≤ 50000; unfold Scalar.indexCast; omega
  · show 0 + 256 ≤ 256; omega

variable (𝒱 : Variants) (c : Dev nD) (bd : Option 𝒱.V) (i : grid0.Coords) (arg2 : Memref sig .tc .hbm S50000x256 .f32) (harg2 : arg2.IsWhole) (arg3 : Memref sig .tc .vmem S1024x16 .f32) (harg3 : arg3.IsWhole) (arg4 : Memref sig .tc .vmem S1024x1 .f32) (harg4 : arg4.IsWhole) (arg5 : Memref sig .tc .smem S1024 .i32) (harg5 : arg5.IsWhole) (arg6 : Memref sig .tc .vmem S16x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S128x256 .f32) (harg10 : arg10.IsWhole) (arg11 : Memref sig .tc .vmem S256 .f32) (harg11 : arg11.IsWhole) (arg12 : Memref sig .tc .vmem S1024x256 .bf16) (harg12 : arg12.IsWhole) (arg13 : Memref sig .tc .vmem S50000x256 .f32) (harg13 : arg13.IsWhole) (arg14 : DmaSems sig S_) (arg15 : Memref sig .tc .vmem S1024x256 .f32) (harg15 : arg15.IsWhole)
  (X_arg5 : BufTy.Contents (Elt F) arg5.view.ty) (X_arg13 : BufTy.Contents (Elt F) arg13.view.ty) (X_arg15 : BufTy.Contents (Elt F) arg15.view.ty)
  (hw : ∀ (B : LoadRect S1024) (j : B.shape.Idx), BitVec.toNat (arg5.view.readAt (Elt F) B X_arg5 j) < 50000)

/-- Every index word a trip reads is below the node count, so each row it reads is in range. -/
@[irreducible] def tripD_k0_t1 (k : Fin k0_t1_loop.trips) :
    { L_arg12 : List (View.Piece (Elt F) S1024x256 .bf16) // ∀ (E : Set ℕ) (f_arg12 : BufTy.Contents (Elt F) arg12.view.ty),
      TripD_k0_t1 (F := F) c arg5 arg13 arg15 arg12 X_arg5 X_arg13 X_arg15 f_arg12
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 arg15 harg15 k PUnit.unit)
          (fun _ => TripD_k0_t1 (F := F) c arg5 arg13 arg15 arg12 X_arg5 X_arg13 X_arg15 (arg12.view.writes (Elt F) f_arg12 L_arg12)) } := by
  have hk : k.val < 64 := Nat.lt_of_lt_of_le k.isLt k0_t1_abs.2.1
  refine ⟨?_, fun E f_arg12 => ?run⟩
  case run =>
    unfold k0_t1_body
    iintro ⟨HR_arg5, HR_arg13, HR_arg15, HW_arg12⟩
    sl_exec (disch := exact chk_of_lt _ (hw _ _))
    sl_step
    sl_close

abbrev tripLD_k0_t1 (k : Fin k0_t1_loop.trips) : List (View.Piece (Elt F) S1024x256 .bf16) :=
  (tripD_k0_t1 (F := F) 𝒱 c bd i arg2 harg2 arg3 harg3 arg4 harg4 arg5 harg5 arg6 harg6 arg7 harg7 arg8 harg8 arg9 harg9 arg10 harg10 arg11 harg11 arg12 harg12 arg13 harg13 arg14 arg15 harg15 X_arg5 X_arg13 X_arg15 hw k).1

@[irreducible] def pbD_k0_t1Step (k : ℕ) (prev : List (View.Piece (Elt F) S1024x256 .bf16)) : List (View.Piece (Elt F) S1024x256 .bf16) :=
  if h : k < k0_t1_loop.trips then
    tripLD_k0_t1 (F := F) 𝒱 c bd i arg2 harg2 arg3 harg3 arg4 harg4 arg5 harg5 arg6 harg6 arg7 harg7 arg8 harg8 arg9 harg9 arg10 harg10 arg11 harg11 arg12 harg12 arg13 harg13 arg14 arg15 harg15 X_arg5 X_arg13 X_arg15 hw ⟨k, h⟩ ++ prev
  else prev

/-- The pieces of the trips before `k`, last trip first. -/
def pbD_k0_t1 : ℕ → List (View.Piece (Elt F) S1024x256 .bf16)
  | 0 => []
  | k + 1 => pbD_k0_t1Step 𝒱 c bd i arg2 harg2 arg3 harg3 arg4 harg4 arg5 harg5 arg6 harg6 arg7 harg7 arg8 harg8 arg9 harg9 arg10 harg10 arg11 harg11 arg12 harg12 arg13 harg13 arg14 arg15 harg15 X_arg5 X_arg13 X_arg15 hw k (pbD_k0_t1 k)

theorem pbD_k0_t1_succ (k : Fin k0_t1_loop.trips) :
    pbD_k0_t1 (F := F) 𝒱 c bd i arg2 harg2 arg3 harg3 arg4 harg4 arg5 harg5 arg6 harg6 arg7 harg7 arg8 harg8 arg9 harg9 arg10 harg10 arg11 harg11 arg12 harg12 arg13 harg13 arg14 arg15 harg15 X_arg5 X_arg13 X_arg15 hw (k.val + 1)
      = tripLD_k0_t1 (F := F) 𝒱 c bd i arg2 harg2 arg3 harg3 arg4 harg4 arg5 harg5 arg6 harg6 arg7 harg7 arg8 harg8 arg9 harg9 arg10 harg10 arg11 harg11 arg12 harg12 arg13 harg13 arg14 arg15 harg15 X_arg5 X_arg13 X_arg15 hw k
        ++ pbD_k0_t1 (F := F) 𝒱 c bd i arg2 harg2 arg3 harg3 arg4 harg4 arg5 harg5 arg6 harg6 arg7 harg7 arg8 harg8 arg9 harg9 arg10 harg10 arg11 harg11 arg12 harg12 arg13 harg13 arg14 arg15 harg15 X_arg5 X_arg13 X_arg15 hw k.val := by
  rw [pbD_k0_t1.eq_2]; unfold pbD_k0_t1Step; exact dif_pos k.isLt

/-- Before trip `k` the output buffer holds the pieces of the trips before `k` over its contents at loop entry. -/
abbrev invD_k0_t1 (G_arg12 : BufTy.Contents (Elt F) arg12.view.ty) (k : ℕ) (_u : PUnit) : sProp 𝕄 :=
  iprop((arg5.view.loc (c : Thread nD τ) ↦[arg5.view.set]{fullShare} X_arg5) ∗ (arg13.view.loc (c : Thread nD τ) ↦[arg13.view.set]{fullShare} X_arg13) ∗ (arg15.view.loc (c : Thread nD τ) ↦[arg15.view.set]{fullShare} X_arg15) ∗ (∃ f, (arg12.view.loc (c : Thread nD τ) ↦[arg12.view.set]{fullShare} f) ∗ ⌜f = arg12.view.writes (Elt F) G_arg12 (pbD_k0_t1 (F := F) 𝒱 c bd i arg2 harg2 arg3 harg3 arg4 harg4 arg5 harg5 arg6 harg6 arg7 harg7 arg8 harg8 arg9 harg9 arg10 harg10 arg11 harg11 arg12 harg12 arg13 harg13 arg14 arg15 harg15 X_arg5 X_arg13 X_arg15 hw k)⌝))

set_option warn.classDefReducibility false in
/-- One trip extends the piece list by its own pieces. -/
@[sl_loop] def loopInvD_k0_t1 (E : Set ℕ) (G_arg12 : BufTy.Contents (Elt F) arg12.view.ty) :
    LoopInvTy_k0_t1 (F := F) Unit ℕ (Pipeline.UD sig nD τ) ℕ 𝒱 c bd E i arg2 harg2 arg3 harg3 arg4 harg4 arg5 harg5 arg6 harg6 arg7 harg7 arg8 harg8 arg9 harg9 arg10 harg10 arg11 harg11 arg12 harg12 arg13 harg13 arg14 arg15 harg15 where
  inv := invD_k0_t1 (F := F) 𝒱 c bd i arg2 harg2 arg3 harg3 arg4 harg4 arg5 harg5 arg6 harg6 arg7 harg7 arg8 harg8 arg9 harg9 arg10 harg10 arg11 harg11 arg12 harg12 arg13 harg13 arg14 arg15 harg15 X_arg5 X_arg13 X_arg15 hw G_arg12
  step k acc := by
    iintro ⟨HR_arg5, HR_arg13, HR_arg15, ⟨%f_arg12, HW_arg12, %h_arg12⟩⟩
    iapply (wp_wand_r Idealize.ShloMosaic.frame (wpE (defs₀ (F := F)) 𝒱 (c : Thread nD τ) bd) E)
    isplitl [HR_arg5 HR_arg13 HR_arg15 HW_arg12]
    · iapply ((tripD_k0_t1 (F := F) 𝒱 c bd i arg2 harg2 arg3 harg3 arg4 harg4 arg5 harg5 arg6 harg6 arg7 harg7 arg8 harg8 arg9 harg9 arg10 harg10 arg11 harg11 arg12 harg12 arg13 harg13 arg14 arg15 harg15 X_arg5 X_arg13 X_arg15 hw k).2 E f_arg12)
      isplitl [HR_arg5]; · iexact HR_arg5
      isplitl [HR_arg13]; · iexact HR_arg13
      isplitl [HR_arg15]; · iexact HR_arg15
      iexact HW_arg12
    · iintro %_ ⟨HR_arg5, HR_arg13, HR_arg15, HW_arg12⟩
      isplitl [HR_arg5]; · iexact HR_arg5
      isplitl [HR_arg13]; · iexact HR_arg13
      isplitl [HR_arg15]; · iexact HR_arg15
      rw [pbD_k0_t1_succ]
      iexists _; isplitl [HW_arg12]; · iexact HW_arg12
      ipureintro; rw [h_arg12, ← View.writes_append]

end Cert.Kernel.Hand

end
-- ==== Proof.KB.Reg0.lean ====

import proofs.«420832_j83571473646104_4_alg».proof.Proof.KB.LoopD
import proofs.«420832_j83571473646104_4_alg».proof.Proof.Gen.Kernel.Launch
import proofs.«420832_j83571473646104_4_alg».proof.Proof.Gen.Kernel.Skeleton
import proofs.«420832_j83571473646104_4_alg».proof.Proof.Gen.Kernel.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Ring
import Idealize.ShloMosaic.Lib.WholeRead
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev srcBlk0 (c : Dev nD) (t : Fin cfg0.N) : Vec F S1024 .i32 := iblk0 V c 2 t

def Hyps0 : Prop := ∀ (c : Dev nD) (t : Fin cfg0.N) (r : S1024.Idx), BitVec.toNat (srcBlk0 V c t r) < 50000

abbrev scM0_0 : Memref sig .tc .vmem S50000x256 .f32 := Memref.whole cc0_scratch0
abbrev scM0_2 : Memref sig .tc .vmem S1024x256 .f32 := Memref.whole cc0_scratch2
abbrev hbM0_0 : Memref sig .tc .hbm S50000x256 .f32 := Memref.whole main_arg0
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

abbrev xArr0 (c : Dev nD) : Vec F S50000x256 .f32 := hbM0_0.view.read (Elt F) (V c main_arg0)

abbrev osem0 : Fin 1 → SemLoc sig := fun j => (![SemLoc.dma 14] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 14) 0) := by
  rw [Pipeline.ownSems0_eq_of_list c osem0 [0] (by decide) (by decide)]; rfl

def H0 : Finset (Ref sig .tc) := {main_arg0}
theorem H0_sub : H0 ⊆ Pipeline.restRefs sig spec0 := by decide
theorem hbmPts0_eq (c : Dev nD) :
    (bigSep H0 (fun b => ((c : Thread nD τ).loc b) ↦{fullShare} V c b) : sProp 𝕄) = iprop(hbPt0 c hbM0_0 (V c main_arg0)) := by
  rw [BI.bigSep_eq_bigSepL_of_eq [main_arg0] (by decide) (by decide)]; rfl

abbrev cond0 (i : grid0.Coords) : Prop :=
  Scalar.cmpi .ne (Scalar.extui (Scalar.cmpi .eq (BitVec.ofNat 32 (i 1).val) 0#32)) 0#32 = 1#1

theorem hcond0 : ∀ t : Fin cfg0.N, cond0 (grid0.coords t) ↔ t.val % 391 = 0 :=
  (by decide +kernel : ∀ t : Fin grid0.N, cond0 (grid0.coords t) ↔ t.val % 391 = 0)

abbrev ms0_0 (t : Fin cfg0.N) : Memref sig .tc .vmem S1024x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S1024 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x256 .bf16 := win0_9.stage (cfg0.slots t 9)
abbrev hs0_9 (t : Fin cfg0.N) : (ms0_9 t).IsWhole := hstage0_9 ((cfg0.slots t 9).cast nbuf0_9)

theorem word_lt0 (arg5 : Memref sig .tc .smem S1024 .i32) (x2 : Vec F S1024 .i32)
    (hx2 : ∀ r : S1024.Idx, BitVec.toNat (x2 r) < 50000) (B : LoadRect S1024) (j : B.shape.Idx) :
    BitVec.toNat (arg5.view.readAt (Elt F) B (arg5.view.rep x2) j) < 50000 := by
  rw [View.readAt_rep]; exact hx2 _

def xOf0 (c : Dev nD) (fh0 : HbBuf0 (F := F) c hbM0_0) : Vec F S50000x256 .f32 := ReadAs.same.apply (hbM0_0.view.read (Elt F) fh0)

def X13_0 (c : Dev nD) (fh0 : HbBuf0 (F := F) c hbM0_0) : BufTy.Contents (Elt F) scM0_0.view.ty :=
  scM0_0.view.writes (Elt F) scM0_0.view.junk [⟨Rect.whole S50000x256, xOf0 c fh0⟩]

theorem read_X13_0 (c : Dev nD) (fh0 : HbBuf0 (F := F) c hbM0_0) : scM0_0.view.read (Elt F) (X13_0 c fh0) = xOf0 c fh0 :=
  View.read_writes_whole _ _ _

theorem xOf0_entry (c : Dev nD) : xOf0 c (V c main_arg0) = xArr0 V c := rfl

section Body

variable (c : Dev nD) (i : grid0.Coords) (arg3 : Memref sig .tc .vmem S1024x16 .f32) (harg3 : arg3.IsWhole) (arg4 : Memref sig .tc .vmem S1024x1 .f32) (harg4 : arg4.IsWhole) (arg5 : Memref sig .tc .smem S1024 .i32) (harg5 : arg5.IsWhole) (arg6 : Memref sig .tc .vmem S16x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S128x256 .f32) (harg10 : arg10.IsWhole) (arg11 : Memref sig .tc .vmem S256 .f32) (harg11 : arg11.IsWhole) (arg12 : Memref sig .tc .vmem S1024x256 .bf16) (harg12 : arg12.IsWhole)
  (x0 : Vec F S1024x16 .f32) (x1 : Vec F S1024x1 .f32) (x2 : Vec F S1024 .i32) (x3 : Vec F S16x128 .f32) (x4 : Vec F S128 .f32) (x5 : Vec F S128x128 .f32) (x6 : Vec F S128 .f32) (x7 : Vec F S128x256 .f32) (x8 : Vec F S256 .f32)
  (X13 : BufTy.Contents (Elt F) scM0_0.view.ty) (hx2 : ∀ r : S1024.Idx, BitVec.toNat (x2 r) < 50000) (fh0 : HbBuf0 (F := F) c hbM0_0)

def pay15L0 : List (View.Piece (Elt F) S1024x256 .f32) :=
  [⟨Rect.unit (s := S1024x256) ![0, 0] S1024x256.size inb_S1024x256_S1024x256_0_0,
      k0_pay15
        (arg3.view.readAt (Elt F) (Rect.unit (s := S1024x16) ![0, 0] S1024x16.size inb_S1024x16_S1024x16_0_0).toLoadRect (arg3.view.rep x0))
        (arg6.view.readAt (Elt F) (Rect.unit (s := S16x128) ![0, 0] S16x128.size inb_S16x128_S16x128_0_0).toLoadRect (arg6.view.rep x3))
        (arg7.view.readAt (Elt F) (Rect.unit (s := S128) ![0] S128.size inb_S128_S128_0).toLoadRect (arg7.view.rep x4))
        (arg8.view.readAt (Elt F) (Rect.unit (s := S128x128) ![0, 0] S128x128.size inb_S128x128_S128x128_0_0).toLoadRect (arg8.view.rep x5))
        (arg9.view.readAt (Elt F) (Rect.unit (s := S128) ![0] S128.size inb_S128_S128_0).toLoadRect (arg9.view.rep x6))
        (arg4.view.readAt (Elt F) (Rect.unit (s := S1024x1) ![0, 0] S1024x1.size inb_S1024x1_S1024x1_0_0).toLoadRect (arg4.view.rep x1))
        (arg10.view.readAt (Elt F) (Rect.unit (s := S128x256) ![0, 0] S128x256.size inb_S128x256_S128x256_0_0).toLoadRect (arg10.view.rep x7))
        (arg11.view.readAt (Elt F) (Rect.unit (s := S256) ![0] S256.size inb_S256_S256_0).toLoadRect (arg11.view.rep x8))⟩]

def X15_0 : BufTy.Contents (Elt F) scM0_2.view.ty :=
  scM0_2.view.writes (Elt F) scM0_2.view.junk (pay15L0 arg3 arg4 arg6 arg7 arg8 arg9 arg10 arg11 x0 x1 x3 x4 x5 x6 x7 x8)

def L0 : List (View.Piece (Elt F) S1024x256 .bf16) :=
  pbD_k0_t1 (F := F) Variants.none c none i hbM0_0 (Memref.isWhole_whole _) arg3 harg3 arg4 harg4 arg5 harg5 arg6 harg6 arg7 harg7 arg8 harg8 arg9 harg9 arg10 harg10 arg11 harg11 arg12 harg12 scM0_0 (Memref.isWhole_whole _) cc0_scratch1 scM0_2 (Memref.isWhole_whole _)
    (arg5.view.rep x2) X13 (X15_0 arg3 arg4 arg6 arg7 arg8 arg9 arg10 arg11 x0 x1 x3 x4 x5 x6 x7 x8)
    (word_lt0 arg5 x2 hx2)
    k0_t1_loop.trips

set_option maxHeartbeats 4000000 in
/-- The body's triple: the nine inputs `I` are left as found and the output holds the writes `L0`; the scratch `S` ends at `X13`, the feature array's copy where `cond0` holds and what it was elsewhere. -/
theorem kernelRun0 (I S : sProp 𝕄) (hI : I = iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8))
    (hA : cond0 i → (S ⊢ iprop(∃ d, owns (c : Thread nD τ) scM0_0 fullShare d)) ∧ X13 = X13_0 c fh0)
    (hB : ¬ cond0 i → S = iprop(scM0_0.view.loc (c : Thread nD τ) ↦[scM0_0.view.set]{fullShare} X13)) (W : Waits sig Unit) (K : PUnit → sProp 𝕄) :
    iprop(I ∗ (∃ d, owns (c : Thread nD τ) arg12 fullShare d) ∗ S ∗ (∃ d, owns (c : Thread nD τ) scM0_2 fullShare d) ∗ semVal ((c : Thread nD τ), SemLoc.dma 14) 0 ∗ hbPt0 c hbM0_0 fh0 ∗ owes (c : Thread nD τ) 0 W
        ∗ (iprop(I ∗ (∃ f, arg12.view.loc (c : Thread nD τ) ↦[arg12.view.set]{fullShare} arg12.view.writes (Elt F) f (L0 c i arg3 harg3 arg4 harg4 arg5 harg5 arg6 harg6 arg7 harg7 arg8 harg8 arg9 harg9 arg10 harg10 arg11 harg11 arg12 harg12 x0 x1 x2 x3 x4 x5 x6 x7 x8 X13 hx2)) ∗ (scM0_0.view.loc (c : Thread nD τ) ↦[scM0_0.view.set]{fullShare} X13) ∗ (∃ d, owns (c : Thread nD τ) scM0_2 fullShare d) ∗ semVal ((c : Thread nD τ), SemLoc.dma 14) 0 ∗ hbPt0 c hbM0_0 fh0 ∗ (∃ W', owes (c : Thread nD τ) 0 W')) -∗ K ⟨⟩))
      ⊢ wp frame (wpE (defs₀ (F := F)) Variants.none c none) Set.univ (cc0__edge_kernel i hbM0_0 (Memref.isWhole_whole _) arg3 harg3 arg4 harg4 arg5 harg5 arg6 harg6 arg7 harg7 arg8 harg8 arg9 harg9 arg10 harg10 arg11 harg11 arg12 harg12 scM0_0 (Memref.isWhole_whole _) cc0_scratch1 scM0_2 (Memref.isWhole_whole _)) K := by
  subst hI
  simp only [cc0__edge_kernel_eq_skeleton]; unfold cc0__edge_kernel_skel
  rw [owns_eq_rep (c : Thread nD τ) arg3, owns_eq_rep (c : Thread nD τ) arg4, owns_eq_rep (c : Thread nD τ) arg5, owns_eq_rep (c : Thread nD τ) arg6, owns_eq_rep (c : Thread nD τ) arg7, owns_eq_rep (c : Thread nD τ) arg8, owns_eq_rep (c : Thread nD τ) arg9, owns_eq_rep (c : Thread nD τ) arg10, owns_eq_rep (c : Thread nD τ) arg11]
  unfold owns
  have hw := word_lt0 arg5 x2 hx2
  by_cases hc : cond0 i
  on_goal 1 => obtain ⟨hS, rfl⟩ := hA hc; unfold owns at hS
  on_goal 2 => obtain rfl := hB hc
  all_goals iintro ⟨⟨H0, H1, H2, H3, H4, H5, H6, H7, H8⟩, ⟨%d9, %f9, -, H9⟩, HV, ⟨%ds2, %fs2, -, HS2⟩, Hq0, Hh0, HW, Hk⟩
  on_goal 1 => ihave HV := hS $$ HV; icases HV with ⟨%dv, %fv, -, HV⟩
  all_goals
    sl_exec (disch := first | sl_exact hc)
    sl_step
    iapply Hk
    iframe H0 H1 H2 H3 H4 H5 H6 H7 H8 Hh0
    isplitl [H9]; · iexists _; iexact H9
    isplitl [HV]; · iexact HV
    isplitl [HS2]
    · iexists _, _; isplitr; swap; · iexact HS2
      ipureintro; rfl
    isplitl [Hq0]; · iexact Hq0
    iexists _; iexact HW

theorem cover0 (y : S1024x256.Idx) :
    ∃ pc ∈ L0 c i arg3 harg3 arg4 harg4 arg5 harg5 arg6 harg6 arg7 harg7 arg8 harg8 arg9 harg9 arg10 harg10 arg11 harg11 arg12 harg12 x0 x1 x2 x3 x4 x5 x6 x7 x8 X13 hx2, y ∈ pc.1.set :=
  View.cover_of_tiledL (L0 c i arg3 harg3 arg4 harg4 arg5 harg5 arg6 harg6 arg7 harg7 arg8 harg8 arg9 harg9 arg10 harg10 arg11 harg11 arg12 harg12 x0 x1 x2 x3 x4 x5 x6 x7 x8 X13 hx2) S16x256.size (by sl_kernel_rfl) y

theorem read_X15_0 :
    scM0_2.view.read (Elt F) (X15_0 arg3 arg4 arg6 arg7 arg8 arg9 arg10 arg11 x0 x1 x3 x4 x5 x6 x7 x8) = k0_pay15 x0 x3 x4 x5 x6 x1 x7 x8 := by
  unfold X15_0 pay15L0
  rw [View.read_writes_junk_eq_canon, View.canon_unit_zero (by funext a; fin_cases a <;> rfl)]
  simp only [View.readAt_eq_ld, View.read_rep]
  repeat rw [View.ld_unit_zero (by funext a; fin_cases a <;> rfl)]

end Body

def sc0At (c : Dev nD) (t : Fin (cfg0.N + 1)) : sProp 𝕄 :=
  if t = 0 then iprop(∃ d, owns (c : Thread nD τ) scM0_0 fullShare d)
  else iprop(scM0_0.view.loc (c : Thread nD τ) ↦[scM0_0.view.set]{fullShare} X13_0 c (V c main_arg0))

def rest0 (c : Dev nD) : sProp 𝕄 :=
  iprop((∃ d, owns (c : Thread nD τ) scM0_2 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f))

def Phi0 (c : Dev nD) (t : Fin (cfg0.N + 1)) : sProp 𝕄 :=
  iprop(iprop(sc0At V c t ∗ rest0 (F := F) c) ∗ (∃ r, prngReg c r) ∗ iprop(semVal ((c : Thread nD τ), SemLoc.dma 14) 0) ∗ iprop(hbPt0 c hbM0_0 (V c main_arg0)))

theorem PhiD0_eq (c : Dev nD) :
    (Pipeline.ΦD osem0 spec0 H0 V c : sProp 𝕄)
      = iprop(iprop((∃ d, owns (c : Thread nD τ) scM0_0 fullShare d) ∗ rest0 (F := F) c) ∗ (∃ r, prngReg c r) ∗ iprop(semVal ((c : Thread nD τ), SemLoc.dma 14) 0) ∗ iprop(hbPt0 c hbM0_0 (V c main_arg0))) := by
  rw [Pipeline.ΦD_eq, scopedRest0_eq, ownSems00_eq, hbmPts0_eq]; unfold rest0; simp only [scM0_0, scM0_2, owns_whole]; try rfl

theorem Phi0_zero (c : Dev nD) : Phi0 V c 0 = Pipeline.ΦD osem0 spec0 H0 V c := by
  rw [PhiD0_eq]; unfold Phi0 sc0At; rw [if_pos rfl]

theorem sc0At_of_ne (c : Dev nD) (t : Fin (cfg0.N + 1)) (h : t ≠ 0) :
    sc0At V c t = iprop(scM0_0.view.loc (c : Thread nD τ) ↦[scM0_0.view.set]{fullShare} X13_0 c (V c main_arg0)) := by
  unfold sc0At; rw [if_neg h]

theorem sc0At_some (c : Dev nD) (t : Fin (cfg0.N + 1)) : sc0At V c t ⊢ iprop(∃ d, owns (c : Thread nD τ) scM0_0 fullShare d) := by
  unfold sc0At; split
  · exact .rfl
  · iintro H; iexists _; iapply (owns_intro (c : Thread nD τ) scM0_0 fullShare _); iexact H

theorem Phi0_last (c : Dev nD) : Phi0 V c (Fin.last _) ⊢ Pipeline.ΦD osem0 spec0 H0 V c := by
  rw [PhiD0_eq]; unfold Phi0
  iintro ⟨⟨Hs, Hr⟩, Hg, Hq, Hh⟩
  iframe Hr Hg Hq Hh
  iapply (sc0At_some V c _); iexact Hs

abbrev blk0_0 (c : Dev nD) (t : Fin cfg0.N) : Vec F S1024x16 .f32 := iblk0 V c 0 t
abbrev blk0_1 (c : Dev nD) (t : Fin cfg0.N) : Vec F S1024x1 .f32 := iblk0 V c 1 t
abbrev blk0_3 (c : Dev nD) (t : Fin cfg0.N) : Vec F S16x128 .f32 := iblk0 V c 3 t
abbrev blk0_4 (c : Dev nD) (t : Fin cfg0.N) : Vec F S128 .f32 := iblk0 V c 4 t
abbrev blk0_5 (c : Dev nD) (t : Fin cfg0.N) : Vec F S128x128 .f32 := iblk0 V c 5 t
abbrev blk0_6 (c : Dev nD) (t : Fin cfg0.N) : Vec F S128 .f32 := iblk0 V c 6 t
abbrev blk0_7 (c : Dev nD) (t : Fin cfg0.N) : Vec F S128x256 .f32 := iblk0 V c 7 t
abbrev blk0_8 (c : Dev nD) (t : Fin cfg0.N) : Vec F S256 .f32 := iblk0 V c 8 t

abbrev VO0 : View sig .tc .vmem S1024x256 .bf16 := (Memref.whole cc0_stg9_0 : Memref sig .tc .vmem S1024x256 .bf16).view

abbrev L0At (hH : Hyps0 V) (c : Dev nD) (t : Fin cfg0.N) : List (View.Piece (Elt F) S1024x256 .bf16) :=
  L0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (blk0_0 V c t) (blk0_1 V c t) (srcBlk0 V c t) (blk0_3 V c t) (blk0_4 V c t) (blk0_5 V c t) (blk0_6 V c t) (blk0_7 V c t) (blk0_8 V c t) (X13_0 c (V c main_arg0)) (hH c t)

def outAt0 (c : Dev nD) (t : Fin cfg0.N) : Vec F S1024x256 .bf16 :=
  @dite _ (Hyps0 V) (Classical.propDecidable _)
    (fun hH => VO0.read (Elt F) (VO0.writes (Elt F) VO0.junk (L0At V hH c t)))
    (fun _ => VO0.read (Elt F) VO0.junk)

theorem outAt0_eq (hH : Hyps0 V) (c : Dev nD) (t : Fin cfg0.N) :
    outAt0 V c t = VO0.read (Elt F) (VO0.writes (Elt F) VO0.junk (L0At V hH c t)) := by
  unfold outAt0; exact dif_pos hH

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => outAt0 V c t
  Φ := Phi0 V c
  q _ := fullShare
  owed _ := 0

theorem A_eq0 (c : Dev nD) (w : Fin cfg0.W) : (dat0 V c).A w = V c (Pipeline.arrRef spec0 w) := by
  dsimp only [dat0]

theorem after0_9 (c : Dev nD) (t : Fin cfg0.N) : (dat0 V c).after 9 t = outAt0 V c t := by dsimp only [dat0]

theorem before0 (c : Dev nD) : ∀ w : Fin cfg0.W, (cfg0.win w).isOut = false → ∀ t d, (dat0 V c).before w t d = (dat0 V c).after w t
  | ⟨0, _⟩, _ | ⟨1, _⟩, _ | ⟨2, _⟩, _ | ⟨3, _⟩, _ | ⟨4, _⟩, _ | ⟨5, _⟩, _ | ⟨6, _⟩, _ | ⟨7, _⟩, _ | ⟨8, _⟩, _ => fun t d =>
    ((dat0 V c).before_in_eq_fetched _ rfl (fun _ => rfl) (fun _ _ _ => rfl) (fun t => by unfold Dat.blockOf; dsimp only [dat0, iblk0]; try rfl) t d).trans
      (by unfold Dat.fetched Dat.blockOf; dsimp only [dat0, iblk0]; try rfl)
  | ⟨9, _⟩, h => nomatch h

set_option maxHeartbeats 2000000 in
/-- At every point the inputs' buffers hold their blocks and the feature copy is as `kernelRun0` wants it, so the body's triple applies; the writes it leaves cover the output block. -/
theorem body_obligation0 (hH : Hyps0 V) (c : Dev nD) : BodyObligation (dat0 (F := F) V c) (defs₀ (F := F)) Variants.none () Set.univ := fun t => by
  rw [bigSep_W0, bigSep_W0]
  simp (disch := rfl) only [before0 V c]
  dsimp only [dat0]
  rw [outAt0_eq V hH]
  unfold Phi0 rest0 Dat.owesAt Pipeline.owesWithin
  rw [sc0At_of_ne V c t.succ (Fin.succ_ne_zero t)]
  iintro ⟨⟨⟨Hs, HS2, HR⟩, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (kernelRun0 c (grid0.coords t) _ _ _ _ _ _ _ _ _ _ _ _ _ _ _ _ _ _ _ _ _ _ _ _ _ _ _ _ _ (X13_0 c (V c main_arg0)) (hH c t) (V c main_arg0) _ (sc0At V c t.castSucc) rfl
    (fun _ => ⟨sc0At_some V c _, rfl⟩)
    (fun hc => sc0At_of_ne V c _ fun e => hc ((hcond0 t).mpr (by have := congrArg Fin.val e; simp at this; rw [this]))) W _)
  iframe H0 H1 H2 H3 H4 H5 H6 H7 H8 Hs HS2 Hq Hh HW
  isplitl [H9]; · iexists _; iexact H9
  iintro ⟨⟨H0, H1, H2, H3, H4, H5, H6, H7, H8⟩, ⟨%e9, H9⟩, Hs, HS2, Hq, Hh, ⟨%W', HW'⟩⟩
  iframe Hs HS2 HR Hg Hq Hh H0 H1 H2 H3 H4 H5 H6 H7 H8
  isplitl [HW']
  · iexists W'; isplitr; · ipureintro; exact fun _ _ => Or.inl trivial
    iexact HW'
  unfold owns; iexists _; isplitr
  swap; · iexact H9
  ipureintro; exact View.read_writes_of_cover _ _ _ _ _ (cover0 c _ _ _ _ _ _ _ _ _ _ _ _ _ _ _ _ _ _ _ _ _ _ _ _ _ _ _ _ _ _ _ _)

end Cert.Kernel.Hand

end
-- ==== Proof.KB.Reg1.lean ====
import proofs.«420832_j83571473646104_4_alg».proof.Proof.Gen.Kernel.Launch
import proofs.«420832_j83571473646104_4_alg».proof.Proof.Gen.Kernel.Skeleton
import proofs.«420832_j83571473646104_4_alg».proof.Proof.Gen.Kernel.Points
import Idealize.ShloMosaic.Lib.Pipeline.FrameBody
import Idealize.ShloMosaic.Lib.Pipeline.TableIdle
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block of its array at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S2000x256 := Rect.unit (s := S2000x256) ![0, 0] S2000x256.size inb_S2000x256_S2000x256_0_0
abbrev r1_b : Rect S256x256 := Rect.unit (s := S256x256) ![0, 0] S256x256.size inb_S256x256_S256x256_0_0
abbrev r1_c : Rect S256 := Rect.unit (s := S256) ![0] S256.size inb_S256_S256_0

/-- The output block as a function of the eight input blocks: one store over the whole block. -/
def out1_8 (x0 : Vec F S2000x256 .f32) (x1 : Vec F S2000x256 .f32) (x2 : Vec F S256x256 .f32) (x3 : Vec F S256 .f32) (x4 : Vec F S256 .f32) (x5 : Vec F S256 .f32) (x6 : Vec F S256x256 .f32) (x7 : Vec F S256 .f32) : Vec F S2000x256 .f32 :=
  View.canon [⟨r1_a, k1_pay1 (k1_pay2 (View.ld x0 r1_a) (View.ld x1 r1_a) (View.ld x2 r1_b) (View.ld x3 r1_c) (View.ld x4 r1_c) (View.ld x5 r1_c) (View.ld x6 r1_b)) (View.ld x7 r1_c)⟩]

/-- The body reads the eight inputs `I`, leaves them as they were, and stores `out1_8` of them over the whole output. -/
theorem sound_kernel1 (c : Dev nD) (E : Set ℕ) (i : grid1.Coords) {a1 a2 a9 : Memref sig .tc .vmem S2000x256 .f32} {a3 a7 : Memref sig .tc .vmem S256x256 .f32}
    {a4 a5 a6 a8 : Memref sig .tc .vmem S256 .f32} (h1 : a1.IsWhole) (h2 : a2.IsWhole) (h3 : a3.IsWhole) (h4 : a4.IsWhole) (h5 : a5.IsWhole)
    (h6 : a6.IsWhole) (h7 : a7.IsWhole) (h8 : a8.IsWhole) (h9 : a9.IsWhole) (x0 x1 : Vec F S2000x256 .f32) (x2 x6 : Vec F S256x256 .f32)
    (x3 x4 x5 x7 : Vec F S256 .f32) (K : PUnit → sProp 𝕄) (I : sProp 𝕄)
    (hI : I = iprop(owns c.tc a1 fullShare x0 ∗ owns c.tc a2 fullShare x1 ∗ owns c.tc a3 fullShare x2 ∗ owns c.tc a4 fullShare x3 ∗ owns c.tc a5 fullShare x4 ∗ owns c.tc a6 fullShare x5 ∗ owns c.tc a7 fullShare x6 ∗ owns c.tc a8 fullShare x7)) :
    iprop((∃ d, owns c.tc a9 fullShare d) ∗ I ∗ (I ∗ owns c.tc a9 fullShare (out1_8 x0 x1 x2 x3 x4 x5 x6 x7) -∗ K ⟨⟩))
      ⊢ wp frame (wpE (defs₀ (F := F)) Variants.none c none) E (cc1__post_kernel i a1 h1 a2 h2 a3 h3 a4 h4 a5 h5 a6 h6 a7 h7 a8 h8 a9 h9) K := by
  subst hI
  simp only [cc1__post_kernel_eq_skeleton]; unfold cc1__post_kernel_skel
  simp only [k1_part1_eq_skeleton]; unfold k1_part1_skel
  rw [owns_eq_rep c.tc a1, owns_eq_rep c.tc a2, owns_eq_rep c.tc a3, owns_eq_rep c.tc a4, owns_eq_rep c.tc a5, owns_eq_rep c.tc a6, owns_eq_rep c.tc a7, owns_eq_rep c.tc a8]
  unfold owns
  iintro ⟨⟨%d, %f, -, H9⟩, ⟨H1, H2, H3, H4, H5, H6, H7, H8⟩, Hk⟩
  sl_exec
  sl_step
  iapply Hk
  iframe H1 H2 H3 H4 H5 H6 H7 H8
  iexists _; isplitr
  swap; · iexact H9
  ipureintro
  simp only [View.readAt_rep]
  exact View.read_writes_eq_canon _ _ _ (View.cover_of_tiled _ S2000x256.size (by rfl))

/-- The node region's proof data on core `c`: the arrays as entered; the body leaves each input's block in place and `out1_8` of them in the output. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]

/-- What the body finds in an input window's buffer is what it leaves there: the window's block at the point. -/
theorem before1 (c : Dev nD) : ∀ w : Fin cfg1.W, (cfg1.win w).isOut = false → ∀ t d, (dat1 V c).before w t d = (dat1 V c).after w t
  | ⟨0, _⟩, _ | ⟨1, _⟩, _ | ⟨2, _⟩, _ | ⟨3, _⟩, _ | ⟨4, _⟩, _ | ⟨5, _⟩, _ | ⟨6, _⟩, _ | ⟨7, _⟩, _ => fun t d =>
    ((dat1 V c).before_in_eq_fetched _ rfl (fun _ => rfl) (fun _ _ _ => rfl) (fun t => by unfold Dat.blockOf; dsimp only [dat1, iblk1]; try rfl) t d).trans
      (by unfold Dat.fetched Dat.blockOf; dsimp only [dat1, iblk1]; try rfl)
  | ⟨8, _⟩, h => nomatch h

/-- At every point the inputs' buffers hold their blocks, so the body's triple applies; the invariant and what the core owes pass through. -/
theorem body_obligation1 (c : Dev nD) : BodyObligation (dat1 (F := F) V c) (defs₀ (F := F)) Variants.none () Set.univ := fun t => by
  rw [bigSep_W1, bigSep_W1]
  simp (disch := rfl) only [before1 V c]
  dsimp only [dat1]
  iintro ⟨HΦ, Ho, ⟨%_, H0⟩, ⟨%_, H1⟩, ⟨%_, H2⟩, ⟨%_, H3⟩, ⟨%_, H4⟩, ⟨%_, H5⟩, ⟨%_, H6⟩, ⟨%_, H7⟩, %_, H8⟩
  iapply sound_kernel1 c Set.univ (grid1.coords t) (hI := rfl)
  isplitl [H8]; · iexists _; iexact H8
  iframe H0 H1 H2 H3 H4 H5 H6 H7
  iintro ⟨⟨H0, H1, H2, H3, H4, H5, H6, H7⟩, H8⟩
  iframe HΦ H0 H1 H2 H3 H4 H5 H6 H7 H8
  iexact Ho

end Cert.Kernel.Hand

end
-- ==== Proof.KB.HypsOfPre.lean ====
import proofs.«420832_j83571473646104_4_alg».proof.Proof.Gen.Kernel.Regions
import proofs.«420832_j83571473646104_4_alg».proof.Proof.Gen.Pre_finite_inputs
import Idealize.ShloMosaic.Lib.ReduceAll
import Idealize.ShloMosaic.Lib.StableHlo.Run
import Idealize.ShloMosaic.Lib.KernelVsHost

set_option maxRecDepth 16384

noncomputable section

namespace Cert.Kernel.Hand

open Cert.Kernel Cert.Kernel.Gen
open Idealize.ShloMosaic Idealize.ShloMosaic.TcCoe Idealize.SL.Sem
open Idealize.ShloMosaic.ValueIdx

variable {F : FTy → Type} [FloatOps F]

/-- A word in [0, 50000) read signed is below 50000 read unsigned. -/
theorem toNat_lt_of_signed_range (w : BitVec 32) (h0 : 0 ≤ w.toInt) (h1 : w.toInt < 50000) : w.toNat < 50000 := by
  have h32 := w.isLt
  rw [BitVec.toInt_eq_toNat_cond] at h0 h1
  split at h0 <;> omega

/-- Entry `e` of row 0 of the edge index, sliced out and reshaped to a vector, is entry (0, e). -/
theorem row0_apply (a1 : S2x800000.Idx → BitVec 32) (e : Fin 800000) :
    shapeCast S800000 (extractStridedSlice S1x800000 ![0, 0] a1 Gen.slices_S2x800000_S1x800000_0_0)
      Gen.shapeCasts_S1x800000_S800000 (ix1 e) = a1 (ix2 (0 : Fin 2) e) := by
  refine (shapeCast_apply _ _ (ix1 e) (ix2 (0 : Fin 1) e) ?_).trans ?_
  · rw [Shape.rowMajor_val_two, Shape.rowMajor_val_one]
    show 0 * 800000 + e.val = e.val
    omega
  · refine extractStridedSlice_apply _ _ _ _ _ ?_
    intro a
    match a with
    | ⟨0, _⟩ => rfl
    | ⟨1, _⟩ => show e.val = 0 + e.val; omega

/-- The precondition's last conjunct is the conjunction over the edges of 0 ≤ src[e] and src[e] < 50000, both signed. -/
theorem src_range_of_fn {a0 a1 a2 a3 a4 a5 a6 a7 a8 a9 a10 a11 a12 a13 a14}
    (h : Cert.Pre_finite_inputs.fn (F := F) a0 a1 a2 a3 a4 a5 a6 a7 a8 a9 a10 a11 a12 a13 a14 = fun _ => 1#1)
    (e : Fin 800000) : 0 ≤ (a1 (ix2 (0 : Fin 2) e)).toInt ∧ (a1 (ix2 (0 : Fin 2) e)).toInt < 50000 := by
  have h0 := congrFun h ix0
  dsimp only [Cert.Pre_finite_inputs.fn, Cert.Pre_finite_inputs.fn_part1, Cert.Pre_finite_inputs.fn_part2,
    Cert.Pre_finite_inputs.fn_part3, Cert.Pre_finite_inputs.fn_part4] at h0
  haveI : Subsingleton Cert.Pre_finite_inputs.S_.Idx := ⟨fun a b => funext fun d => d.elim0⟩
  obtain ⟨hge, hlt⟩ := IntOp.andi_eq_one.1 (show IntOp.andi _ _ = 1#1 from
    Host.reduce_andi_all _ _ _ _ _ (IntOp.andi_eq_one.1 (show IntOp.andi _ _ = 1#1 from h0)).2 (ix1 e))
  have hge' : IntOp.cmpi .sge (a1 (ix2 (0 : Fin 2) e)) (0#32) = 1#1 := by rw [← row0_apply a1 e]; exact hge
  have hlt' : IntOp.cmpi .slt (a1 (ix2 (0 : Fin 2) e)) (50000#32) = 1#1 := by rw [← row0_apply a1 e]; exact hlt
  rw [IntOp.cmpi_sge] at hge'
  rw [IntOp.cmpi_slt] at hlt'
  exact ⟨hge', hlt'⟩

section
variable (m : (ℓ : Loc nD τ sig) → Buf (Elt F) ℓ)

/-- The vector the edge region reads is row 0 of the edge index padded with the word 0, so its words are below 50000 when row 0's are. -/
theorem V10_main_v7_lt (c : Dev nD)
    (hsrc : ∀ e : Fin 800000, ((m ((c.tc : Thread nD τ).loc main_arg1) : S2x800000.Idx → BitVec 32) (ix2 (0 : Fin 2) e)).toNat < 50000)
    (e : Fin 800768) : ((V10 m c main_v7 : S800768.Idx → BitVec 32) (ix1 e)).toNat < 50000 := by
  have e4 : (V10 m c main_v7 : S800768.Idx → BitVec 32) =
      pad S800768 ![0] ![768] ![0] (V3 m c main_v1 : S800000.Idx → BitVec 32) (V3 m c main_c : S_.Idx → BitVec 32)
        Gen.pads_S800000_S800768_07680 Gen.h_S_ :=
    ((V10_of m c main_v7 (by decide)).trans <| (V9_of m c main_v7 (by decide)).trans <| (V8_of m c main_v7 (by decide)).trans <|
      (V7_of m c main_v7 (by decide)).trans <| (V6_of m c main_v7 (by decide)).trans (V5_of m c main_v7 (by decide))).trans (by
    show StableHlo.after hostOps0_3 (V3 m c) (Proc.devRef .tc main_v7) = _
    after_results
    rfl)
  rw [e4]
  by_cases he : e.val < 800000
  · have e1 : (V3 m c main_v1 : S800000.Idx → BitVec 32) =
        shapeCast S800000 (extractStridedSlice S1x800000 ![0, 0] (m ((c.tc : Thread nD τ).loc main_arg1) : S2x800000.Idx → BitVec 32)
          Gen.slices_S2x800000_S1x800000_0_0) Gen.shapeCasts_S1x800000_S800000 :=
      ((V3_of m c main_v1 (by decide)).trans (V2_of m c main_v1 (by decide))).trans (by
        show StableHlo.after hostOps0 (V0 m c) (Proc.devRef .tc main_v1) = _
        after_results
        rfl)
    rw [pad_apply_of_inside _ _ _ _ _ _ _ (ix1 e) (ix1 (⟨e.val, he⟩ : Fin 800000)) (by
      intro a
      match a with
      | ⟨0, _⟩ => show e.val = 0 + e.val * (0 + 1); omega), e1, row0_apply]
    exact hsrc _
  · have ec : (V3 m c main_c : S_.Idx → BitVec 32) = constantI S_ 32 0#32 := by
      show StableHlo.after hostOps0_2 (V2 m c) (Proc.devRef .tc main_c) = _
      after_results
    rw [pad_apply_of_not_inside _ _ _ _ _ _ _ (ix1 e) (0 : Fin 1) (by
      intro hin
      have h3 : (e.val - 0) / (0 + 1) < 800000 := hin.2.2
      omega), ec]
    show (0#32 : BitVec 32).toNat < 50000
    decide

/-- The precondition's function is all ones on every device's argument arrays. -/
abbrev PreAt : Prop :=
  ∀ c : Dev nD,
    Cert.Pre_finite_inputs.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)) (m ((c.tc : Thread nD τ).loc main_arg13))
      (m ((c.tc : Thread nD τ).loc main_arg14)) = (fun _ => 1#1)

theorem src_range_of_pre (h : PreAt m) (c : Dev nD) (e : Fin 800000) :
    0 ≤ ((m ((c.tc : Thread nD τ).loc main_arg1) : S2x800000.Idx → BitVec 32) (ix2 (0 : Fin 2) e)).toInt
      ∧ ((m ((c.tc : Thread nD τ).loc main_arg1) : S2x800000.Idx → BitVec 32) (ix2 (0 : Fin 2) e)).toInt < 50000 :=
  src_range_of_fn (h c) e

/-- Under the precondition every word of every block of the padded source vector, as the edge region finds it, is below 50000. -/
theorem hyps0_of_pre (h : PreAt m) (c : Dev nD) (t : Fin cfg0.N) (r : S1024.Idx) :
    BitVec.toNat ((((cfg0.win 2).blk t).view.read (Elt F)
      ((fun (c : Dev nD) (b : Ref sig .tc) => (V10 m c b : Buf (Elt F) ((c : Thread nD τ).loc b))) c (Pipeline.arrRef spec0 2))
        : S1024.Idx → BitVec 32) r) < 50000 := by
  rw [View.read_apply]
  generalize View.emb _ r = j
  rw [eq_ix1 j]
  exact V10_main_v7_lt m c (fun e => toNat_lt_of_signed_range _ (src_range_of_pre m h c e).1 (src_range_of_pre m h c e).2) _

end

end Cert.Kernel.Hand

end
-- ==== Proof.KB.Run.lean ====
import proofs.«420832_j83571473646104_4_alg».proof.Proof.KB.Reg0
import proofs.«420832_j83571473646104_4_alg».proof.Proof.KB.Reg1
import proofs.«420832_j83571473646104_4_alg».proof.Proof.KB.HypsOfPre
import proofs.«420832_j83571473646104_4_alg».proof.Proof.Gen.Kernel.Launch
import proofs.«420832_j83571473646104_4_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev WA (c : Dev nD) : Valuation τ sig (Elt F) := Gen.V10 m c

abbrev VA : (c : Dev nD) → (b : Ref sig .tc) → Buf (Elt F) ((c : Thread nD τ).loc b) := fun c b => WA m c b

def WB (c : Dev nD) : Valuation τ sig (Elt F) :=
  Pipeline.withArrays spec0 c (WA m c) fun w => (dat0 (VA m) c).arrAt w cfg0.N
theorem WB_arr (c : Dev nD) (w : Fin cfg0.W) :
    WB m c (Proc.devRef .tc (Pipeline.arrRef spec0 w)) = (dat0 (VA m) c).arrAt w cfg0.N := by
  unfold WB; exact Pipeline.withArrays_arr spec0 launch0.win.arr_inj c _ _ w
theorem WB_of_ne (c : Dev nD) (b : Ref sig .tc) (hb : ∀ w, Pipeline.arrRef spec0 w ≠ b) :
    WB m c (Proc.devRef .tc b) = WA m c (Proc.devRef .tc b) := by
  unfold WB; exact Pipeline.withArrays_of_ne spec0 c _ _ b hb
abbrev VB : (c : Dev nD) → (b : Ref sig .tc) → Buf (Elt F) ((c : Thread nD τ).loc b) := fun c b => WB m c b
abbrev WC (c : Dev nD) : Valuation τ sig (Elt F) := StableHlo.after hostOps1 (WB m c)
abbrev VC : (c : Dev nD) → (b : Ref sig .tc) → Buf (Elt F) ((c : Thread nD τ).loc b) := fun c b => WC m c b
theorem WC_of (c : Dev nD) (r : Ref sig .tc) (h : r ∉ hostOps1_W) : WC m c r = WB m c r :=
  StableHlo.after_of_writes_sub hostOps1 _ hostOps1_writes h

def WD (c : Dev nD) : Valuation τ sig (Elt F) :=
  Pipeline.withArrays spec1 c (WC m c) fun w => (dat1 (VC m) c).arrAt w cfg1.N
theorem WD_arr (c : Dev nD) (w : Fin cfg1.W) :
    WD m c (Proc.devRef .tc (Pipeline.arrRef spec1 w)) = (dat1 (VC m) c).arrAt w cfg1.N := by
  unfold WD; exact Pipeline.withArrays_arr spec1 launch1.win.arr_inj c _ _ w
theorem WD_of_ne (c : Dev nD) (b : Ref sig .tc) (hb : ∀ w, Pipeline.arrRef spec1 w ≠ b) :
    WD m c (Proc.devRef .tc b) = WC m c (Proc.devRef .tc b) := by
  unfold WD; exact Pipeline.withArrays_of_ne spec1 c _ _ b hb
abbrev VD : (c : Dev nD) → (b : Ref sig .tc) → Buf (Elt F) ((c : Thread nD τ).loc b) := fun c b => WD m c b

theorem WA_arg (c : Dev nD) (r : Ref sig .tc) (h0 : r ∉ hostOps0_W) (h1 : r ∉ hostOps0_1_W) (h2 : r ∉ hostOps0_2_W) (h3 : r ∉ hostOps0_3_W)
    (h4 : r ∉ hostOps0_4_W) (h5 : r ∉ hostOps0_5_W) (h6 : r ∉ hostOps0_6_W) (h7 : r ∉ hostOps0_7_W) (h8 : r ∉ hostOps0_8_W) (h9 : r ∉ hostOps0_9_W) :
    WA m c r = m ((c : Thread nD τ).loc r) :=
  (Gen.V10_of m c r h9).trans <| (Gen.V9_of m c r h8).trans <| (Gen.V8_of m c r h7).trans <| (Gen.V7_of m c r h6).trans <| (Gen.V6_of m c r h5).trans <|
    (Gen.V5_of m c r h4).trans <| (Gen.V4_of m c r h3).trans <| (Gen.V3_of m c r h2).trans <| (Gen.V2_of m c r h1).trans <| (Gen.V1_of m c r h0).trans rfl

/-- A buffer that no host operation writes and that is no output window's array of either region ends as launched. -/
theorem WD_arg (c : Dev nD) (r : Ref sig .tc) (h1 : ∀ w, Pipeline.arrRef spec1 w = r → (cfg1.win w).isOut = false) (hh : r ∉ hostOps1_W)
    (hw : ∀ w, Pipeline.arrRef spec0 w = r → (cfg0.win w).isOut = false) (h0 : r ∉ hostOps0_W) (h1' : r ∉ hostOps0_1_W) (h2 : r ∉ hostOps0_2_W)
    (h3 : r ∉ hostOps0_3_W) (h4 : r ∉ hostOps0_4_W) (h5 : r ∉ hostOps0_5_W) (h6 : r ∉ hostOps0_6_W) (h7 : r ∉ hostOps0_7_W) (h8 : r ∉ hostOps0_8_W)
    (h9 : r ∉ hostOps0_9_W) : WD m c (Proc.devRef .tc r) = m ((c : Thread nD τ).loc r) := by
  have eD : WD m c (Proc.devRef .tc r) = WC m c (Proc.devRef .tc r) := by
    by_cases hr : ∃ w, Pipeline.arrRef spec1 w = r
    · obtain ⟨w, rfl⟩ := hr
      exact (WD_arr m c w).trans (((dat1 (VC m) c).arrAt_in w (h1 w rfl) _).trans (A_eq1 (VC m) c w))
    · exact WD_of_ne m c r fun w e => hr ⟨w, e⟩
  have eB : WB m c (Proc.devRef .tc r) = WA m c (Proc.devRef .tc r) := by
    by_cases hr : ∃ w, Pipeline.arrRef spec0 w = r
    · obtain ⟨w, rfl⟩ := hr
      exact (WB_arr m c w).trans (((dat0 (VA m) c).arrAt_in w (hw w rfl) _).trans (A_eq0 (VA m) c w))
    · exact WB_of_ne m c r fun w e => hr ⟨w, e⟩
  exact eD.trans <| (WC_of m c r hh).trans <| eB.trans (WA_arg m c r h0 h1' h2 h3 h4 h5 h6 h7 h8 h9)

theorem hyps_of_pre (h : PreAt m) : Hyps0 (VA m) := by
  intro c t r
  unfold srcBlk0 iblk0
  exact hyps0_of_pre m h c t r

abbrev adm : (p : Fin 2) → (pcfgs (F := F) p).Adm := fun p => (cfgs p).toPCfg_adm

def pdats : (p : Fin 2) → (c : Dev nD) → Dat τ (Elt F) Unit ℕ (Pipeline.UD sig nD τ) ℕ (Pipeline.pin (pcfgs (F := F)) adm p) c
  | ⟨0, _⟩ => fun c => dat0 (VA m) c
  | ⟨1, _⟩ => fun c => dat1 (VC m) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (WD m c) ∗ ∃ r, prngReg c r)

/-- The buffers of `S` at their contents when the edge region is entered. -/
abbrev own0 (S : Finset (Ref sig .tc)) (c : Dev nD) : sProp 𝕄 := bigSep S fun b => ((c : Thread nD τ).loc b) ↦{fullShare} VA m c b

/-- The edge region's buffers outside its windows' arrays split into `H0` and the rest. -/
theorem rest0_split (c : Dev nD) : (Pipeline.unscopedRest (Ix := Unit) (Name := ℕ) (U := Pipeline.UD sig nD τ) (Lvl := ℕ) spec0 c (VA m c) : sProp 𝕄)
    = iprop(own0 m H0 c ∗ own0 m (Pipeline.restRefs sig spec0 \ H0) c) := by
  unfold Pipeline.unscopedRest; exact BI.bigSep_sdiff_split H0_sub

/-- The edge region as a segment from the contents `WA` to `WB`. -/
def reg0 (hH : Hyps0 (VA m)) : Pipeline.RegionSeg (pcfgs (F := F)) adm (pdats m) () defs₀ 𝒱₀ L lv 0 where
  win := launch0.win.to₀
  block_pos := launch0.block_pos
  stage_whole := launch0.stage_whole
  K := Fin 1
  osem := osem0
  ho := ownSemFacts0
  hbody c := (body_obligation0 (VA m) hH c).loose
  hwaits := Pipeline.hwaits_of_owed_zero _ _ _ _ L lv 0 fun _ _ => rfl
  pre c := iprop(StableHlo.held (c : Thread nD τ) (Pipeline.ucRefs τ sig) (WA m c) ∗ R c)
  post c := iprop(StableHlo.held (c : Thread nD τ) (Pipeline.ucRefs τ sig) (WB m c) ∗ R c)
  X c := iprop((∃ r, prngReg c r) ∗ Pipeline.ownSems0 (Ix := Unit) (Name := ℕ) (U := Pipeline.UD sig nD τ) (Lvl := ℕ) (Val := Elt F) (τ := τ) osem0 c ∗ own0 m H0 c)
  Y c := iprop((∃ r, prngReg c r) ∗ own0 m H0 c)
  Z c := own0 m (Pipeline.restRefs sig spec0 \ H0) c
  hentry c := by
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, %W, HO⟩, Hos, -⟩
    ihave ⟨Ha, Hrest⟩ := hsplit $$ Hub
    ihave ⟨HH, HR⟩ := (Entails.of_eq (rest0_split m c)) $$ Hrest
    imodintro
    iframe Ha Hp Hos HH HR
    isplitr; · unfold Pipeline.prefHeld; rw [show (Finset.univ : Finset (Fin 0)) = ∅ from rfl, BI.bigSep_empty]; iempintro
    iexists W; isplitr; · ipureintro; exact fun _ _ => Or.inl trivial
    iexact HO
  hin c := by
    rw [show (pdats m 0 c).Φ 0 = Phi0 (VA m) c 0 from rfl, Phi0_zero, Pipeline.ΦD_eq]
    iintro ⟨⟨Hp, Ho, HH⟩, -, Hr⟩
    iframe Hr Hp Ho HH
  hout c := by
    rw [show (pdats m 0 c).Φ (Fin.last _) = Phi0 (VA m) c (Fin.last _) from rfl]
    refine (Phi0_last (VA m) c).trans ?_
    rw [Pipeline.ΦD_eq]
    iintro ⟨Hr, Hp, Ho, HH⟩
    iframe Hr Hp Ho HH
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (VA m c) (VB m c) ((pdats m 0 c).arrAt · cfg0.N) (fun w => (WB_arr m c w).symm)
      fun b hb => WB_of_ne m c b fun w e => hb (Finset.mem_image.mpr ⟨w, Finset.mem_univ _, e⟩)
    rw [Pipeline.unscopedBufs_held] at hjoin
    iintro ⟨Ha, ⟨%W, -, HO⟩, ⟨HY, HH⟩, HR⟩
    ihave Hrest := (Entails.of_eq (rest0_split m c).symm) $$ [HH HR]
    · iframe HH HR
    imodintro
    isplitl [Ha Hrest]
    · iapply hjoin; iframe Ha Hrest
    isplitl [HY]; · iexact HY
    iexists W; iexact HO

/-- The node region as a segment from the contents `WC` to `WD`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VC m) c).loose
  hwaits := Pipeline.hwaits_of_owed_zero _ _ _ _ L lv 1 fun _ _ => rfl
  pre c := iprop(StableHlo.held (c : Thread nD τ) (Pipeline.ucRefs τ sig) (WC m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (VC m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VC m c) fun _ => rfl
    rw [Pipeline.unscopedBufs_held] at hsplit
    iintro ⟨⟨Hub, Hp, %W, HO⟩, -, -⟩
    ihave ⟨Ha, Hrest⟩ := hsplit $$ Hub
    imodintro
    iframe Ha Hp Hrest
    isplitr; · unfold Pipeline.prefHeld; rw [show (Finset.univ : Finset (Fin 0)) = ∅ from rfl, BI.bigSep_empty]; iempintro
    iexists W; isplitr; · ipureintro; exact fun _ _ => Or.inl trivial
    iexact HO
  hin c := by
    rw [show (pdats m 1 c).Φ 0 = Pipeline.ΦA spec1 c from rfl]; unfold Pipeline.ΦA
    iintro ⟨Hp, -, Hr⟩
    iframe Hr Hp
  hout c := by
    rw [Pipeline.ownSems0_none, show (pdats m 1 c).Φ (Fin.last _) = Pipeline.ΦA spec1 c from rfl]; unfold Pipeline.ΦA
    iintro ⟨Hr, Hp⟩
    iframe Hp Hr
    iempintro
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (VC m c) (VD m c) ((pdats m 1 c).arrAt · cfg1.N) (fun w => (WD_arr m c w).symm)
      fun b hb => WD_of_ne m c b fun w e => hb (Finset.mem_image.mpr ⟨w, Finset.mem_univ _, e⟩)
    rw [Pipeline.unscopedBufs_held] at hjoin
    iintro ⟨Ha, ⟨%W, -, HO⟩, HY, Hrest⟩
    imodintro
    isplitl [Ha Hrest HY]
    · isplitl [Ha Hrest]
      · iapply hjoin; iframe Ha Hrest
      iexact HY
    iexists W; iexact HO

abbrev segs (hH : Hyps0 (VA m)) : List (Pipeline.Seg (pcfgs (F := F)) adm (pdats m) () defs₀ 𝒱₀ L lv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .host (hseg hostOps0_3 hostOps0_3_sub hostOps0_3_fresh (Gen.V3 m)),
    .host (hseg hostOps0_4 hostOps0_4_sub hostOps0_4_fresh (Gen.V4 m)),
    .host (hseg hostOps0_5 hostOps0_5_sub hostOps0_5_fresh (Gen.V5 m)),
    .host (hseg hostOps0_6 hostOps0_6_sub hostOps0_6_fresh (Gen.V6 m)),
    .host (hseg hostOps0_7 hostOps0_7_sub hostOps0_7_fresh (Gen.V7 m)),
    .host (hseg hostOps0_8 hostOps0_8_sub hostOps0_8_fresh (Gen.V8 m)),
    .host (hseg hostOps0_9 hostOps0_9_sub hostOps0_9_fresh (Gen.V9 m)),
    .region (reg0 m hH),
    .host (hseg hostOps1 hostOps1_sub hostOps1_fresh (WB m)),
    .region (reg1 m) ]

theorem run_all (hH : Hyps0 (VA m)) : θ_run defs (onTc (τ := τ) (main (F := F))) ⟨m, fun _ => 0, ρ⟩
    (fun r => ∀ c : Dev nD, ∀ b ∈ Pipeline.ucRefs τ sig, r.2.mem (((c : Thread nD τ)).1, b) = WD m c b) :=
  Pipeline.θ_run_regions_kit (pcfgs (F := F)) adm (pdats m) () cellOf_inj embL defs₀ 𝒱₀ L lv m ρ main (segs m hH)
    (fun c Q => by
      rewrite [main_chain c, Pipeline.Seg.run_eq_chain]
      exact .rfl)
    (by simp only [segs, Pipeline.Seg.pipes_host, Pipeline.Seg.pipes_region, Pipeline.Seg.pipes_nil]; decide)
    (O₀ := 0) (hL := fun _ _ => rfl) (G := fun _ => iprop(emp))
    (u₀ := (Rounds.initOf (Pipeline.cells cfgs cellOf_inj) (Pipeline.launchToks cfgs cellOf_inj), 1))
    (hu₀ := by
      iintro Hu
      ihave ⟨HP, -⟩ := (ownU_pair _ _) $$ Hu
      imodintro
      iframe HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      iframe Hh
      isplitl [Hp]; · iexists _; iexact Hp
      iexists ∅; iexact HO)
    (QY := fun c s => ∀ b ∈ Pipeline.ucRefs τ sig, s.mem (((c : Thread nD τ)).1, b) = WD m c b)
    (hfin := fun c s' => by
      iintro ⟨⟨Hh, -⟩, HSI⟩
      unfold StableHlo.held
      imodintro
      iapply (pointsTo_read_all (Pipeline.ucRefs τ sig) (fun b => (((c : Thread nD τ)).1, b)) (WD m c) s')
      iframe Hh HSI)
    (hQ := fun s h c => h c)

/-- Every argument array holds in `mem` what it held at launch. -/
abbrev ArgsKept (mem : (ℓ : Loc nD τ sig) → Buf (Elt F) ℓ) (c : Dev nD) : Prop :=
  mem ((c.tc : Thread nD τ).loc main_arg0) = m ((c.tc : Thread nD τ).loc main_arg0)
    ∧ mem ((c.tc : Thread nD τ).loc main_arg1) = m ((c.tc : Thread nD τ).loc main_arg1)
    ∧ mem ((c.tc : Thread nD τ).loc main_arg2) = m ((c.tc : Thread nD τ).loc main_arg2)
    ∧ mem ((c.tc : Thread nD τ).loc main_arg3) = m ((c.tc : Thread nD τ).loc main_arg3)
    ∧ mem ((c.tc : Thread nD τ).loc main_arg4) = m ((c.tc : Thread nD τ).loc main_arg4)
    ∧ mem ((c.tc : Thread nD τ).loc main_arg5) = m ((c.tc : Thread nD τ).loc main_arg5)
    ∧ mem ((c.tc : Thread nD τ).loc main_arg6) = m ((c.tc : Thread nD τ).loc main_arg6)
    ∧ mem ((c.tc : Thread nD τ).loc main_arg7) = m ((c.tc : Thread nD τ).loc main_arg7)
    ∧ mem ((c.tc : Thread nD τ).loc main_arg8) = m ((c.tc : Thread nD τ).loc main_arg8)
    ∧ mem ((c.tc : Thread nD τ).loc main_arg9) = m ((c.tc : Thread nD τ).loc main_arg9)
    ∧ mem ((c.tc : Thread nD τ).loc main_arg10) = m ((c.tc : Thread nD τ).loc main_arg10)
    ∧ mem ((c.tc : Thread nD τ).loc main_arg11) = m ((c.tc : Thread nD τ).loc main_arg11)
    ∧ mem ((c.tc : Thread nD τ).loc main_arg12) = m ((c.tc : Thread nD τ).loc main_arg12)
    ∧ mem ((c.tc : Thread nD τ).loc main_arg13) = m ((c.tc : Thread nD τ).loc main_arg13)
    ∧ mem ((c.tc : Thread nD τ).loc main_arg14) = m ((c.tc : Thread nD τ).loc main_arg14)

/-- The run with the result named: the result buffer ends at the node region's output array, the arguments as launched. -/
theorem run_result (hH : Hyps0 (VA m)) : θ_run defs (onTc (τ := τ) (main (F := F))) ⟨m, fun _ => 0, ρ⟩ (fun r => ∀ c : Dev nD,
      r.2.mem ((c.tc : Thread nD τ).loc main_v16) = (dat1 (VC m) c).arrAt 8 cfg1.N ∧ ArgsKept m r.2.mem c) :=
  (θ_run defs _ _).mono (fun r h c => by
    refine ⟨(h c _ (mem_uc main_v16 (by decide))).trans (WD_arr m c 8), ?_⟩
    and_intros <;> exact (h c _ (mem_uc _ (by decide))).trans (WD_arg m c _ (by decide) (by decide) (by decide) (by decide) (by decide) (by decide)
      (by decide) (by decide) (by decide) (by decide) (by decide) (by decide) (by decide))) (run_all m ρ hH)

/-- The frame: under the range fact the program runs and every argument array ends as launched. -/
theorem frame (hH : Hyps0 (VA m)) : θ_run defs (onTc (τ := τ) (main (F := F))) ⟨m, fun _ => 0, ρ⟩ (fun r => ∀ c : Dev nD, ArgsKept m r.2.mem c) :=
  (θ_run defs _ _).mono (fun r h c => (h c).2) (run_result m ρ hH)

end Cert.Kernel.Hand

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev Mat (a b : Nat) : Type := (⟨2, ![a, b]⟩ : Shape).Idx → EReal

abbrev Vc (a : Nat) : Type := (⟨1, ![a]⟩ : Shape).Idx → EReal

def zero : EReal := Ideal.ofBits .f32 0x00000000#32

def gateShift : EReal := Ideal.ofBits .f32 0x3C23D70A#32

def featCount : EReal := Ideal.ofBits .f32 0x43800000#32

def varShift : EReal := Ideal.ofBits .f32 0x3727C5AC#32

def proj {K N : Nat} (x : Fin K → EReal) (W : Mat K N) (j : Fin N) : EReal := ∑ k : Fin K, x k * W (ix2 k j)

def rowOf {a b : Nat} (M : Mat a b) (r : Fin a) : Fin b → EReal := fun j => M (ix2 r j)

def hidden1 (raw : Fin 16 → EReal) (ew1 : Mat 16 128) (eb1 : Vc 128) : Fin 128 → EReal :=
  fun j => max (proj raw ew1 j + eb1 (ix1 j)) zero

def gated (raw : Fin 16 → EReal) (pol : EReal) (ew1 : Mat 16 128) (eb1 : Vc 128) (ew2 : Mat 128 128) (eb2 : Vc 128) :
    Fin 128 → EReal :=
  fun j => (proj (hidden1 raw ew1 eb1) ew2 j + eb2 (ix1 j)) * (pol + gateShift)

def embRow (raw : Fin 16 → EReal) (pol : EReal) (ew1 : Mat 16 128) (eb1 : Vc 128) (ew2 : Mat 128 128) (eb2 : Vc 128)
    (lew : Mat 128 256) (leb : Vc 256) : Fin 256 → EReal :=
  fun j => proj (gated raw pol ew1 eb1 ew2 eb2) lew j + leb (ix1 j)

def msgRow (xrow emb : Fin 256 → EReal) : Fin 256 → EReal := fun j => max (xrow j + emb j) zero

def clip01 (p : EReal) : EReal := min (max (Ideal.ofBits .f32 0x00000000#32) p) (Ideal.ofBits .f32 0x3F800000#32)

def dense1 (h : Fin 256 → EReal) (w1 : Mat 256 256) (b1 : Vc 256) : Fin 256 → EReal :=
  fun j => proj h w1 j + b1 (ix1 j)

def meanOf (v : Fin 256 → EReal) : EReal := Ideal.div (∑ j : Fin 256, v j) featCount

def centred (v : Fin 256 → EReal) : Fin 256 → EReal := fun j => v j - meanOf v

def normRelu (v : Fin 256 → EReal) (g b : Vc 256) : Fin 256 → EReal :=
  fun j => max (centred v j * Ideal.rsqrt (meanOf (fun k => centred v k * centred v k) + varShift) * g (ix1 j) + b (ix1 j)) zero

def postRow (h : Fin 256 → EReal) (w1 : Mat 256 256) (b1 g b : Vc 256) (w2 : Mat 256 256) (b2 : Vc 256) : Fin 256 → EReal :=
  fun j => proj (normRelu (dense1 h w1 b1) g b) w2 j + b2 (ix1 j)

end Cert.Spec

end
-- ==== Proof.RefSpec.lean ====
import proofs.«420832_j83571473646104_4_alg».proof.Proof.Spec

noncomputable section

namespace Cert.ReferenceIdeal.RefSide

open Idealize.ShloMosaic Idealize.ShloMosaic.ValueIdx

def rawR (ea : Spec.Mat 800000 17) (e : Fin 800000) : Fin 16 → EReal := fun k => ea (ix2 e ⟨k.val + 1, by omega⟩)

def polR (ea : Spec.Mat 800000 17) (e : Fin 800000) : EReal := Spec.clip01 (ea (ix2 e 0))

def srcN (ei : (⟨2, ![2, 800000]⟩ : Shape).Idx → BitVec 32) (e : Fin 800000) : BitVec 32 :=
  Scalar.select (IntOp.cmpi .slt (ei (ix2 0 e)) 0#32) (IntOp.addi (ei (ix2 0 e)) 50000#32) (ei (ix2 0 e))

def srcRow (ei : (⟨2, ![2, 800000]⟩ : Shape).Idx → BitVec 32) (e : Fin 800000) : Fin 50000 :=
  ⟨min (srcN ei e).toInt.toNat 49999, by omega⟩

theorem srcN_of_nonneg (ei : (⟨2, ![2, 800000]⟩ : Shape).Idx → BitVec 32) (e : Fin 800000)
    (h0 : 0 ≤ (ei (ix2 0 e)).toInt) : srcN ei e = ei (ix2 0 e) := by
  have hs : (ei (ix2 0 e)).slt 0#32 = false := by
    unfold BitVec.slt
    rw [decide_eq_false_iff_not]
    show ¬ (ei (ix2 0 e)).toInt < 0
    omega
  unfold srcN IntOp.cmpi
  show Scalar.select (BitVec.ofBool ((ei (ix2 0 e)).slt 0#32)) _ _ = _
  rw [hs]
  exact if_neg (by decide)

/-- A word whose signed reading is a node index has the same reading unsigned. -/
theorem toNat_of_inRange (w : BitVec 32) (h0 : 0 ≤ w.toInt) (h1 : w.toInt < 50000) : w.toInt = (w.toNat : Int) := by
  rcases BitVec.toInt_eq_toNat_cond w with h
  rw [h] at h0 h1 ⊢
  split at h0 <;> omega

theorem srcRow_val_of_inRange (ei : (⟨2, ![2, 800000]⟩ : Shape).Idx → BitVec 32) (e : Fin 800000)
    (h0 : 0 ≤ (ei (ix2 0 e)).toInt) (h1 : (ei (ix2 0 e)).toInt < 50000) :
    (srcRow ei e).val = (ei (ix2 0 e)).toNat := by
  show min (srcN ei e).toInt.toNat 49999 = _
  rw [srcN_of_nonneg ei e h0]
  have h2 := toNat_of_inRange _ h0 h1
  omega

variable (x : Spec.Mat 50000 256) (ei : (⟨2, ![2, 800000]⟩ : Shape).Idx → BitVec 32) (ea : Spec.Mat 800000 17)
  (ew1 : Spec.Mat 16 128) (eb1 : Spec.Vc 128) (ew2 : Spec.Mat 128 128) (eb2 : Spec.Vc 128)
  (lew : Spec.Mat 128 256) (leb : Spec.Vc 256)
  (w1 : Spec.Mat 256 256) (b1 g b : Spec.Vc 256) (w2 : Spec.Mat 256 256) (b2 : Spec.Vc 256)

def msgR (e : Fin 800000) : Fin 256 → EReal :=
  Spec.msgRow (fun k => x (ix2 (srcRow ei e) k)) (Spec.embRow (rawR ea e) (polR ea e) ew1 eb1 ew2 eb2 lew leb)

def aggrR (n : Fin 50000) (k : Fin 256) : EReal :=
  Spec.zero + ∑ e : Fin 800000, if (ei (ix2 1 e)).toInt = (n.val : Int) then msgR x ei ea ew1 eb1 ew2 eb2 lew leb e k else 0

def refOut : Spec.Mat 50000 256 :=
  fun i => Spec.postRow (fun k => x (ix2 (i 0) k) + aggrR x ei ea ew1 eb1 ew2 eb2 lew leb (i 0) k) w1 b1 g b w2 b2 (i 1)

end Cert.ReferenceIdeal.RefSide

end
-- ==== Proof.RefPost.lean ====
import proofs.«420832_j83571473646104_4_alg».proof.Defs
import proofs.«420832_j83571473646104_4_alg».proof.Proof.Gen.ReferenceIdeal.Run
import proofs.«420832_j83571473646104_4_alg».proof.Proof.Gen.ReferenceIdeal.Read
import proofs.«420832_j83571473646104_4_alg».proof.Proof.Spec

noncomputable section

namespace Cert.ReferenceIdeal.RefSide

open Idealize.ShloMosaic Idealize.ShloMosaic.ValueIdx Cert.ReferenceIdeal Cert.ReferenceIdeal.Gen Cert.ReferenceIdeal.Read

variable (x : Spec.Mat 50000 256) (ei : (⟨2, ![2, 800000]⟩ : Shape).Idx → BitVec 32) (ea : Spec.Mat 800000 17)
  (ew1 : Spec.Mat 16 128) (eb1 : Spec.Vc 128) (ew2 : Spec.Mat 128 128) (eb2 : Spec.Vc 128)
  (lew : Spec.Mat 128 256) (leb : Spec.Vc 256)
  (w1 : Spec.Mat 256 256) (b1 g b : Spec.Vc 256) (w2 : Spec.Mat 256 256) (b2 : Spec.Vc 256)
  (h : Fin 50000 → Fin 256 → EReal)
  (h36 : ∀ (n : Fin 50000) (k : Fin 256), val_main_v36 (F := Ideal) x ei ea ew1 eb1 ew2 eb2 lew leb (ix2 n k) = h n k)

include h36

/-- With the row entering the node network read as `h n`, each stage at `(n, j)` is the matching row function of `h n`. -/
theorem dense1_at (n : Fin 50000) (j : Fin 256) :
    val_main_v40 (F := Ideal) x ei ea ew1 eb1 ew2 eb2 lew leb w1 b1 (ix2 n j) = Spec.dense1 (h n) w1 b1 j := by
  rw [val_main_v40_apply, val_main_v37_apply, val_main_v39_apply, val_main_v38_apply]
  have hl : ∀ k : Fin 256, lidx_main_v37 (ix2 n j) k = ix2 n k := fun k => eq_ix2 _
  have hr : ∀ k : Fin 256, ridx_main_v37 (ix2 n j) k = ix2 k j := fun k => eq_ix2 _
  have hv : idx_main_v38 (idx_main_v39 (ix2 n j)) = ix1 j := eq_ix1 _
  simp only [hl, hr, hv, h36]
  rfl

theorem mean_at (n : Fin 50000) (u : Fin 1) :
    val_main_v44 (F := Ideal) x ei ea ew1 eb1 ew2 eb2 lew leb w1 b1 (ix2 n u) = Spec.meanOf (Spec.dense1 (h n) w1 b1) := by
  rw [val_main_v44_apply, val_main_v42_apply, val_main_v41_apply, val_main_v43_apply, val_main_cst_5_apply,
    val_main_cst_4_apply]
  have hi : ∀ k : Fin 256, idx_main_v41 (idx_main_v42 (ix2 n u)) k = ix2 n k := fun k => eq_ix2 _
  simp only [hi, dense1_at x ei ea ew1 eb1 ew2 eb2 lew leb w1 b1 h h36, Ideal.ofBits_def, Ideal.ofBits_zero_f32, zero_add, Ideal.hostDivf_def]
  rfl

theorem centred_at (n : Fin 50000) (j : Fin 256) :
    val_main_v46 (F := Ideal) x ei ea ew1 eb1 ew2 eb2 lew leb w1 b1 (ix2 n j) = Spec.centred (Spec.dense1 (h n) w1 b1) j := by
  rw [val_main_v46_apply, val_main_v45_apply]
  have hi : idx_main_v45 (ix2 n j) = ix2 n (0 : Fin 1) := eq_ix2 _
  rw [hi, dense1_at x ei ea ew1 eb1 ew2 eb2 lew leb w1 b1 h h36, mean_at x ei ea ew1 eb1 ew2 eb2 lew leb w1 b1 h h36]
  rfl

theorem centred'_at (n : Fin 50000) (j : Fin 256) :
    val_main_v53 (F := Ideal) x ei ea ew1 eb1 ew2 eb2 lew leb w1 b1 (ix2 n j) = Spec.centred (Spec.dense1 (h n) w1 b1) j := by
  rw [val_main_v53_apply, val_main_v52_apply]
  have hi : idx_main_v52 (ix2 n j) = ix2 n (0 : Fin 1) := eq_ix2 _
  rw [hi, dense1_at x ei ea ew1 eb1 ew2 eb2 lew leb w1 b1 h h36, mean_at x ei ea ew1 eb1 ew2 eb2 lew leb w1 b1 h h36]
  rfl

theorem var_at (n : Fin 50000) (u : Fin 1) :
    val_main_v51 (F := Ideal) x ei ea ew1 eb1 ew2 eb2 lew leb w1 b1 (ix2 n u)
      = Spec.meanOf (fun k => Spec.centred (Spec.dense1 (h n) w1 b1) k * Spec.centred (Spec.dense1 (h n) w1 b1) k) := by
  rw [val_main_v51_apply, val_main_v49_apply, val_main_v48_apply, val_main_v50_apply, val_main_cst_7_apply,
    val_main_cst_6_apply]
  have hi : ∀ k : Fin 256, idx_main_v48 (idx_main_v49 (ix2 n u)) k = ix2 n k := fun k => eq_ix2 _
  simp only [hi, val_main_v47_apply, centred_at x ei ea ew1 eb1 ew2 eb2 lew leb w1 b1 h h36, Ideal.mulf_def, Ideal.ofBits_def,
    Ideal.ofBits_zero_f32, zero_add, Ideal.hostDivf_def]
  rfl

theorem normRelu_at (n : Fin 50000) (j : Fin 256) :
    val_main_v65 (F := Ideal) x ei ea ew1 eb1 ew2 eb2 lew leb w1 b1 g b (ix2 n j) = Spec.normRelu (Spec.dense1 (h n) w1 b1) g b j := by
  rw [val_main_v65_apply, val_main_v64_apply, val_main_v61_apply, val_main_v58_apply, val_main_v57_apply,
    val_main_v56_apply, val_main_v55_apply, val_main_v54_apply, val_main_cst_8_apply, val_main_v60_apply,
    val_main_v59_apply, val_main_v63_apply, val_main_v62_apply, val_main_call3_v0_apply, val_main_call3_cst_apply]
  have hi : idx_main_v57 (ix2 n j) = ix2 n (0 : Fin 1) := eq_ix2 _
  have hg : idx_main_v59 (idx_main_v60 (ix2 n j)) = ix1 j := eq_ix1 _
  have hs : idx_main_v62 (idx_main_v63 (ix2 n j)) = ix1 j := eq_ix1 _
  rw [hi, hg, hs, centred'_at x ei ea ew1 eb1 ew2 eb2 lew leb w1 b1 h h36, var_at x ei ea ew1 eb1 ew2 eb2 lew leb w1 b1 h h36]
  rfl

theorem post_at (n : Fin 50000) (j : Fin 256) :
    val_main_v69 (F := Ideal) x ei ea ew1 eb1 ew2 eb2 lew leb w1 b1 g b w2 b2 (ix2 n j) = Spec.postRow (h n) w1 b1 g b w2 b2 j := by
  rw [val_main_v69_apply, val_main_v66_apply, val_main_v68_apply, val_main_v67_apply]
  have hl : ∀ k : Fin 256, lidx_main_v66 (ix2 n j) k = ix2 n k := fun k => eq_ix2 _
  have hr : ∀ k : Fin 256, ridx_main_v66 (ix2 n j) k = ix2 k j := fun k => eq_ix2 _
  have hv : idx_main_v67 (idx_main_v68 (ix2 n j)) = ix1 j := eq_ix1 _
  simp only [hl, hr, hv, normRelu_at x ei ea ew1 eb1 ew2 eb2 lew leb w1 b1 g b h h36]
  rfl

end Cert.ReferenceIdeal.RefSide

end
-- ==== Proof.LibScatterRows.lean ====
import Idealize.ShloMosaic.PureOps.Ideal
import Idealize.ShloMosaic.Lib.ValueIdx

noncomputable section

namespace Idealize.ShloMosaic.ScatterRows

open Idealize.ShloMosaic Idealize.ShloMosaic.ValueIdx

/-- An update lands on operand index `i` exactly when, on every axis, its start plus its window coordinate is `i`'s. -/
theorem resultIdx?_eq_some_iff {s si u : Shape} (d : ScatterDims s si u) {w : Nat} (j : u.Idx) (idx : IVec si w) (i : s.Idx) :
    d.resultIdx? j idx = some i ↔ ∀ a, d.start j idx a + d.window j a = ((i a).val : Int) := by
  unfold ScatterDims.resultIdx?
  split
  · rename_i h
    rw [Option.some.injEq]
    constructor
    · rintro rfl a
      have := h a
      show _ = (((_ : Int).toNat : Nat) : Int)
      omega
    · intro e
      funext a
      apply Fin.ext
      have := e a
      show (_ : Int).toNat = _
      omega
  · rename_i h
    refine ⟨fun e => (by cases e), fun e => absurd (fun a => ?_) h⟩
    have := e a
    have := (i a).isLt
    omega

variable {R C N : Nat}

abbrev dims2 (wf : ScatterDims.WF (⟨2, ![R, C]⟩ : Shape) ⟨2, ![N, 1]⟩ ⟨2, ![N, C]⟩ [1] [0] [0] 1) :
    ScatterDims (⟨2, ![R, C]⟩ : Shape) ⟨2, ![N, 1]⟩ ⟨2, ![N, C]⟩ where
  updateWindowDims := [1]
  insertedWindowDims := [0]
  scatterDimsToOperandDims := [0]
  indexVectorDim := 1
  wf := wf

variable (wf : ScatterDims.WF (⟨2, ![R, C]⟩ : Shape) ⟨2, ![N, 1]⟩ ⟨2, ![N, C]⟩ [1] [0] [0] 1)

/-- In a row scatter, update `(n, q)` lands on `(r, c)` exactly when its start row, read signed, is `r` and `q = c`. -/
theorem resultIdx_iff {w : Nat} (n : Fin N) (q : Fin C) (idx : IVec ⟨2, ![N, 1]⟩ w) (r : Fin R) (c : Fin C) :
    (dims2 wf).resultIdx? (ix2 n q) idx = some (ix2 r c) ↔ (idx (ix2 n 0)).toInt = (r.val : Int) ∧ q = c := by
  have hs0 : (dims2 wf).start (ix2 n q) idx 0 = (idx (ix2 n 0)).toInt := by
    unfold ScatterDims.start
    rw [dif_pos (show (0 : Fin 2) ∈ [(0 : Fin 2)] by decide)]
    exact congrArg (fun k => (idx k).toInt) (funext fun b => Fin.ext (match b with | ⟨0, _⟩ => rfl | ⟨1, _⟩ => rfl))
  have hs1 : (dims2 wf).start (ix2 n q) idx 1 = 0 := by
    unfold ScatterDims.start
    rw [dif_neg (show ¬ (1 : Fin 2) ∈ [(0 : Fin 2)] by decide)]
  have hw0 : (dims2 wf).window (ix2 n q) 0 = 0 := by
    unfold ScatterDims.window
    exact dif_neg (show ¬ (0 : Fin 2) ∈ (List.finRange 2).filter (· ∉ [(0 : Fin 2)]) by decide)
  have hw1 : (dims2 wf).window (ix2 n q) 1 = q.val := by
    unfold ScatterDims.window
    exact (dif_pos (show (1 : Fin 2) ∈ (List.finRange 2).filter (· ∉ [(0 : Fin 2)]) by decide)).trans rfl
  rw [resultIdx?_eq_some_iff, Fin.forall_fin_two]
  show (dims2 wf).start (ix2 n q) idx 0 + ((dims2 wf).window (ix2 n q) 0 : Nat) = (r.val : Int)
    ∧ (dims2 wf).start (ix2 n q) idx 1 + ((dims2 wf).window (ix2 n q) 1 : Nat) = (c.val : Int) ↔ _
  rw [hs0, hw0, hs1, hw1, Fin.ext_iff]
  omega

/-- A row scatter-add at `(r, c)`: the operand's entry plus the updates' column `c` over the rows whose start row is `r`. -/
theorem scatterAdd_apply {w : Nat} (x : (⟨2, ![R, C]⟩ : Shape).Idx → EReal) (idx : IVec ⟨2, ![N, 1]⟩ w)
    (upd : (⟨2, ![N, C]⟩ : Shape).Idx → EReal) (r : Fin R) (c : Fin C) :
    Ideal.hostScatterAdd (dims2 wf) x idx upd (ix2 r c)
      = x (ix2 r c) + ∑ n : Fin N, if (idx (ix2 n 0)).toInt = (r.val : Int) then upd (ix2 n c) else 0 := by
  unfold Ideal.hostScatterAdd
  refine congrArg (x (ix2 r c) + ·) ?_
  rw [Finset.sum_filter, sum_idx2]
  refine Finset.sum_congr rfl fun n _ => ?_
  simp only [resultIdx_iff wf]
  by_cases hn : (idx (ix2 n 0)).toInt = (r.val : Int)
  · simp only [hn, true_and, if_true]
    rw [Finset.sum_ite_eq' Finset.univ c (fun q => upd (ix2 n q)), if_pos (Finset.mem_univ c)]
  · simp only [hn, false_and, if_false, Finset.sum_const_zero]

end Idealize.ShloMosaic.ScatterRows

end
-- ==== Proof.RefSide.lean ====
import proofs.«420832_j83571473646104_4_alg».proof.Proof.RefSpec
import proofs.«420832_j83571473646104_4_alg».proof.Proof.RefPost
import proofs.«420832_j83571473646104_4_alg».proof.Proof.LibScatterRows

noncomputable section

namespace Cert.ReferenceIdeal.RefSide

open Idealize.ShloMosaic Idealize.ShloMosaic.ValueIdx Cert.ReferenceIdeal Cert.ReferenceIdeal.Gen Cert.ReferenceIdeal.Read

section Gather

variable {α : Type} {R C N : Nat}

abbrev rowDims (wf : GatherDims.WF (⟨2, ![R, C]⟩ : Shape) ⟨2, ![N, 1]⟩ ⟨2, ![N, C]⟩ [1] [0] [] [0] [] 1 ![1, C]) :
    GatherDims (⟨2, ![R, C]⟩ : Shape) ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

variable (wf : GatherDims.WF (⟨2, ![R, C]⟩ : Shape) ⟨2, ![N, 1]⟩ ⟨2, ![N, C]⟩ [1] [0] [] [0] [] 1 ![1, C])

theorem gather_rows_apply {w : Nat} (hR : 0 < R) (x : (⟨2, ![R, C]⟩ : Shape).Idx → α) (idx : IVec ⟨2, ![N, 1]⟩ w)
    (n : Fin N) (c : Fin C) :
    Host.gather (rowDims wf) x idx (ix2 n c)
      = x (ix2 ⟨min (idx (ix2 n (0 : Fin 1))).toInt.toNat (R - 1), by omega⟩ c) := by
  unfold Host.gather
  refine congrArg x (funext fun a => Fin.ext ?_)
  match a with
  | ⟨0, _⟩ =>
    show (rowDims wf).start (ix2 n c) idx 0 + (rowDims wf).batchCoord (ix2 n c) 0 + (rowDims wf).offCoord (ix2 n c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims wf).startIndexMap from List.mem_singleton.mpr rfl)]
    have hsi : (rowDims wf).siIdx (ix2 n c) ⟨List.idxOf (0 : Fin 2) (rowDims wf).startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  | ⟨1, _⟩ =>
    show (rowDims wf).start (ix2 n c) idx 1 + (rowDims wf).batchCoord (ix2 n c) 1 + (rowDims wf).offCoord (ix2 n c) 1 = c.val
    have hk : (1 : Fin (⟨2, ![R, C]⟩ : Shape).rank) ∈ (rowDims wf).sKept :=
      (show (1 : Fin 2) ∈ (List.finRange 2).filter (· ∉ [(0 : Fin 2)] ++ []) by decide)
    rw [GatherDims.batchCoord_eq_zero _ _ _ List.not_mem_nil]
    unfold GatherDims.start GatherDims.offCoord
    rw [dif_neg (show ¬ (1 : Fin 2) ∈ [(0 : Fin 2)] by decide), dif_pos hk]
    exact (Nat.zero_add _).trans rfl

end Gather

section Edge

variable (ea : Spec.Mat 800000 17) (ew1 : Spec.Mat 16 128) (eb1 : Spec.Vc 128) (ew2 : Spec.Mat 128 128) (eb2 : Spec.Vc 128)
  (lew : Spec.Mat 128 256) (leb : Spec.Vc 256)

theorem raw_at (e : Fin 800000) (k : Fin 16) : val_main_v6 (F := Ideal) ea (ix2 e k) = rawR ea e k := by
  rw [val_main_v6_apply]
  exact congrArg ea (funext fun a => Fin.ext (by
    match a with
    | ⟨0, _⟩ => rfl
    | ⟨1, _⟩ => exact Nat.add_comm 1 k.val))

theorem hidden1_at (e : Fin 800000) (j : Fin 128) :
    val_main_v11 (F := Ideal) ea ew1 eb1 (ix2 e j) = Spec.hidden1 (rawR ea e) ew1 eb1 j := by
  rw [val_main_v11_apply, val_main_v10_apply, val_main_v7_apply, val_main_v9_apply, val_main_v8_apply,
    val_main_call1_v0_apply, val_main_call1_cst_apply]
  have hl : ∀ k : Fin 16, lidx_main_v7 (ix2 e j) k = ix2 e k := fun k => eq_ix2 _
  have hr : ∀ k : Fin 16, ridx_main_v7 (ix2 e j) k = ix2 k j := fun k => eq_ix2 _
  have hb : idx_main_v8 (idx_main_v9 (ix2 e j)) = ix1 j := eq_ix1 _
  simp only [hl, hr, hb, raw_at]
  rfl

theorem gate_at (e : Fin 800000) : val_main_v17 (F := Ideal) ea (ix2 e (0 : Fin 1)) = polR ea e + Spec.gateShift := by
  rw [val_main_v17_apply, val_main_v5_apply, val_main_call0_v4_apply, val_main_call0_v3_apply, val_main_cst_0_apply,
    val_main_call0_v2_apply, val_main_call0_v1_apply, val_main_call0_v0_apply, val_main_cst_apply, val_main_v4_apply,
    val_main_v16_apply, val_main_cst_1_apply]
  have h4 : idx_main_v4 (ix2 e (0 : Fin 1)) = ix2 e (0 : Fin 17) := eq_ix2 _
  rw [h4]
  show min _ (max _ _) + _ = Spec.clip01 _ + _
  rw [min_comm]
  rfl

theorem gated_at (e : Fin 800000) (j : Fin 128) :
    val_main_v19 (F := Ideal) ea ew1 eb1 ew2 eb2 (ix2 e j) = Spec.gated (rawR ea e) (polR ea e) ew1 eb1 ew2 eb2 j := by
  rw [val_main_v19_apply, val_main_v15_apply, val_main_v12_apply, val_main_v14_apply, val_main_v13_apply,
    val_main_v18_apply]
  have hl : ∀ k : Fin 128, lidx_main_v12 (ix2 e j) k = ix2 e k := fun k => eq_ix2 _
  have hr : ∀ k : Fin 128, ridx_main_v12 (ix2 e j) k = ix2 k j := fun k => eq_ix2 _
  have hb : idx_main_v13 (idx_main_v14 (ix2 e j)) = ix1 j := eq_ix1 _
  have hg : idx_main_v18 (ix2 e j) = ix2 e (0 : Fin 1) := eq_ix2 _
  simp only [hl, hr, hb, hg, hidden1_at, gate_at]
  rfl

theorem emb_at (e : Fin 800000) (j : Fin 256) :
    val_main_v23 (F := Ideal) ea ew1 eb1 ew2 eb2 lew leb (ix2 e j)
      = Spec.embRow (rawR ea e) (polR ea e) ew1 eb1 ew2 eb2 lew leb j := by
  rw [val_main_v23_apply, val_main_v20_apply, val_main_v22_apply, val_main_v21_apply]
  have hl : ∀ k : Fin 128, lidx_main_v20 (ix2 e j) k = ix2 e k := fun k => eq_ix2 _
  have hr : ∀ k : Fin 128, ridx_main_v20 (ix2 e j) k = ix2 k j := fun k => eq_ix2 _
  have hb : idx_main_v21 (idx_main_v22 (ix2 e j)) = ix1 j := eq_ix1 _
  simp only [hl, hr, hb, gated_at]
  rfl

end Edge

section Message

variable (x : Spec.Mat 50000 256) (ei : (⟨2, ![2, 800000]⟩ : Shape).Idx → BitVec 32) (ea : Spec.Mat 800000 17)
  (ew1 : Spec.Mat 16 128) (eb1 : Spec.Vc 128) (ew2 : Spec.Mat 128 128) (eb2 : Spec.Vc 128)
  (lew : Spec.Mat 128 256) (leb : Spec.Vc 256)

theorem srcN_at (e : Fin 800000) : val_main_v29 (F := Ideal) ei (ix2 e (0 : Fin 1)) = srcN ei e := by
  rw [val_main_v29_apply, val_main_v28_apply, val_main_v25_apply, val_main_v27_apply, val_main_v1_apply,
    val_main_v0_apply, val_main_v24_apply, val_main_c_apply, val_main_v26_apply, val_main_c_2_apply]
  have h : idx_main_v0 (idx_main_v1 (idx_main_v29 (ix2 e (0 : Fin 1)))) = ix2 (0 : Fin 2) e := funext fun a => Fin.ext (by
    match a with
    | ⟨0, _⟩ => rfl
    | ⟨1, _⟩ => exact Nat.mod_eq_of_lt e.isLt)
  rw [h]
  rfl

theorem dst_at (e : Fin 800000) : val_main_v34 (F := Ideal) ei (ix2 e (0 : Fin 1)) = ei (ix2 (1 : Fin 2) e) := by
  rw [val_main_v34_apply, val_main_v3_apply, val_main_v2_apply]
  exact congrArg ei (funext fun a => Fin.ext (by
    match a with
    | ⟨0, _⟩ => rfl
    | ⟨1, _⟩ => exact Nat.mod_eq_of_lt e.isLt))

theorem gather_at (e : Fin 800000) (k : Fin 256) :
    val_main_v30 (F := Ideal) x ei (ix2 e k) = x (ix2 (srcRow ei e) k) := by
  unfold val_main_v30
  have h := gather_rows_apply gather_S50000x256_S800000x1_S800000x256_1_0_n_n_0_1_1256_wf (Nat.succ_pos 49999) x
    (val_main_v29 (F := Ideal) ei) e k
  simp only [srcN_at] at h
  exact h

theorem msg_at (e : Fin 800000) (k : Fin 256) :
    val_main_v32 (F := Ideal) x ei ea ew1 eb1 ew2 eb2 lew leb (ix2 e k) = msgR x ei ea ew1 eb1 ew2 eb2 lew leb e k := by
  rw [val_main_v32_apply, val_main_v31_apply, val_main_call2_v0_apply, val_main_call2_cst_apply, gather_at, emb_at]
  rfl

theorem scatter_rows_at (z : Spec.Mat 50000 256) (idx : IVec (⟨2, ![800000, 1]⟩ : Shape) 32) (upd : Spec.Mat 800000 256)
    (n : Fin 50000) (k : Fin 256) :
    Host.scatterAdd (F := Ideal) (φ := .f32) scatter_S50000x256_S800000x1_S800000x256_1_0_0_1 z idx upd (ix2 n k)
      = z (ix2 n k) + ∑ e : Fin 800000, if (idx (ix2 e (0 : Fin 1))).toInt = (n.val : Int) then upd (ix2 e k) else 0 :=
  ScatterRows.scatterAdd_apply scatter_S50000x256_S800000x1_S800000x256_1_0_0_1_wf z idx upd n k

theorem aggr_sum (n : Fin 50000) (k : Fin 256) :
    val_main_v33 (F := Ideal) (ix2 n k)
        + ∑ e : Fin 800000, (if (val_main_v34 (F := Ideal) ei (ix2 e (0 : Fin 1))).toInt = (n.val : Int)
            then val_main_v32 (F := Ideal) x ei ea ew1 eb1 ew2 eb2 lew leb (ix2 e k) else 0)
      = aggrR x ei ea ew1 eb1 ew2 eb2 lew leb n k := by
  rw [val_main_v33_apply, val_main_cst_3_apply]
  unfold aggrR
  refine congrArg (Spec.zero + ·) (Finset.sum_congr rfl fun e _ => ?_)
  rw [dst_at, msg_at]

theorem aggr_at (n : Fin 50000) (k : Fin 256) :
    val_main_v35 (F := Ideal) x ei ea ew1 eb1 ew2 eb2 lew leb (ix2 n k) = aggrR x ei ea ew1 eb1 ew2 eb2 lew leb n k :=
  (scatter_rows_at (val_main_v33 (F := Ideal)) (val_main_v34 (F := Ideal) ei)
    (val_main_v32 (F := Ideal) x ei ea ew1 eb1 ew2 eb2 lew leb) n k).trans (aggr_sum x ei ea ew1 eb1 ew2 eb2 lew leb n k)

end Message

section Whole

variable (x : Spec.Mat 50000 256) (ei : (⟨2, ![2, 800000]⟩ : Shape).Idx → BitVec 32) (ea : Spec.Mat 800000 17)
  (ew1 : Spec.Mat 16 128) (eb1 : Spec.Vc 128) (ew2 : Spec.Mat 128 128) (eb2 : Spec.Vc 128)
  (lew : Spec.Mat 128 256) (leb : Spec.Vc 256)
  (w1 : Spec.Mat 256 256) (b1 g b : Spec.Vc 256) (w2 : Spec.Mat 256 256) (b2 : Spec.Vc 256)

theorem hrow_at (n : Fin 50000) (k : Fin 256) :
    val_main_v36 (F := Ideal) x ei ea ew1 eb1 ew2 eb2 lew leb (ix2 n k)
      = x (ix2 n k) + aggrR x ei ea ew1 eb1 ew2 eb2 lew leb n k := by
  rw [val_main_v36_apply, aggr_at]
  rfl

theorem stage_eq :
    val_main_v69 (F := Ideal) x ei ea ew1 eb1 ew2 eb2 lew leb w1 b1 g b w2 b2
      = refOut x ei ea ew1 eb1 ew2 eb2 lew leb w1 b1 g b w2 b2 := by
  funext i
  obtain ⟨n, j, rfl⟩ : ∃ (n : Fin 50000) (j : Fin 256), i = ix2 n j := ⟨i 0, i 1, eq_ix2 i⟩
  exact post_at x ei ea ew1 eb1 ew2 eb2 lew leb w1 b1 g b w2 b2
    (fun n k => x (ix2 n k) + aggrR x ei ea ew1 eb1 ew2 eb2 lew leb n k)
    (hrow_at x ei ea ew1 eb1 ew2 eb2 lew leb) n j

end Whole

theorem ref_eq (m' : (ℓ : Loc nD τ sig) → Buf (Elt Ideal) ℓ) (c : Dev nD) :
    Cert.ReferenceIdeal.Value.res_main_v69 (F := Ideal) m' c
      = refOut (m' ((c.tc : Thread nD τ).loc main_arg0)) (m' ((c.tc : Thread nD τ).loc main_arg1))
          (m' ((c.tc : Thread nD τ).loc main_arg2)) (m' ((c.tc : Thread nD τ).loc main_arg3))
          (m' ((c.tc : Thread nD τ).loc main_arg4)) (m' ((c.tc : Thread nD τ).loc main_arg5))
          (m' ((c.tc : Thread nD τ).loc main_arg6)) (m' ((c.tc : Thread nD τ).loc main_arg7))
          (m' ((c.tc : Thread nD τ).loc main_arg8)) (m' ((c.tc : Thread nD τ).loc main_arg9))
          (m' ((c.tc : Thread nD τ).loc main_arg10)) (m' ((c.tc : Thread nD τ).loc main_arg11))
          (m' ((c.tc : Thread nD τ).loc main_arg12)) (m' ((c.tc : Thread nD τ).loc main_arg13))
          (m' ((c.tc : Thread nD τ).loc main_arg14)) :=
  (val_main_v69_eq (F := Ideal) m' c).trans (stage_eq _ _ _ _ _ _ _ _ _ _ _ _ _ _ _)

end Cert.ReferenceIdeal.RefSide

end
-- ==== Proof.KI.MsgSpec.lean ====
import proofs.«420832_j83571473646104_4_alg».proof.Proof.Spec

noncomputable section

namespace Cert.KernelIdeal.HandValue

open Idealize.ShloMosaic Idealize.ShloMosaic.ValueIdx

def xAt (x : Spec.Mat 50000 256) (n : ℕ) (j : Fin 256) : EReal :=
  if h : n < 50000 then x (ix2 ⟨n, h⟩ j) else Spec.zero

def msgArr (x : Spec.Mat 50000 256) (rawp : Spec.Mat 800768 16) (polp : Spec.Mat 800768 1)
    (srcp : (⟨1, ![800768]⟩ : Shape).Idx → BitVec 32)
    (ew1 : Spec.Mat 16 128) (eb1 : Spec.Vc 128) (ew2 : Spec.Mat 128 128) (eb2 : Spec.Vc 128)
    (lew : Spec.Mat 128 256) (leb : Spec.Vc 256) : Spec.Mat 800768 256 :=
  fun i => Spec.msgRow (fun j => xAt x (srcp (ix1 (i 0))).toNat j)
    (Spec.embRow (Spec.rowOf rawp (i 0)) (polp (ix2 (i 0) (0 : Fin 1))) ew1 eb1 ew2 eb2 lew leb) (i 1)

end Cert.KernelIdeal.HandValue

end
-- ==== Proof.LibPlainMatmul.lean ====
import Idealize.ShloMosaic.PureOps.Ideal.Laws
import Idealize.ShloMosaic.Lib.Pipeline.Value
import Idealize.ShloMosaic.Lib.ValueIdx

noncomputable section

namespace Cert.Lib

open Idealize.ShloMosaic Idealize.ShloMosaic.ValueIdx

/-- A plain matrix product into the zero accumulator is, at `(r, j)`, the sum over `k` of `l (r, k) * w (k, j)`. -/
theorem matmul_plain_zero_apply {φ₁ φ₂ : FTy} (M K N : ℕ) (prec : Option ContractPrecision)
    (l : FVec Ideal ⟨2, ![M, K]⟩ φ₁) (w : FVec Ideal ⟨2, ![K, N]⟩ φ₂) (r : Fin M) (j : Fin N) :
    FloatOps.matmul (DotDims.plain M K N) prec l w (constant ⟨2, ![M, N]⟩ .f32 0x00000000#32) (ix2 r j)
      = ∑ k : Fin K, l (ix2 r k) * w (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  exact congrArg₂ (· * ·)
    (congrArg l (Shape.idx_ext₂ rfl (((DotDims.plain M K N).lhsIdx_val_of_single (cl := 1) rfl _ _).trans hk)))
    (congrArg w (Shape.idx_ext₂ (((DotDims.plain M K N).rhsIdx_val_of_single (cr := 0) rfl _ _).trans hk) rfl))

end Cert.Lib

end
-- ==== Proof.LibKeepdims.lean ====
import Idealize.ShloMosaic.Lib.ValueLayout

noncomputable section

namespace Cert.Lib

open Idealize.ShloMosaic Idealize.ShloMosaic.ValueIdx

variable {α : Type}

/-- An `[a]` vector viewed as an `[a, 1]` column holds, in row `i`, the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    rw [Shape.rowMajor_val_two, Shape.rowMajor_val_one]
    show i.val = i.val * 1 + u.val
    omega)

/-- An `[a, 1]` column spread along the rows of an `[a, b]` array holds, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A length-`K` vector viewed as a row and laid along each of `M` rows holds, at `(r, k)`, the vector's entry `k`. -/
theorem biasRow_apply {M K : ℕ} (b : (⟨1, ![K]⟩ : Shape).Idx → α)
    (h2 : (⟨1, ![K]⟩ : Shape).ShapeCasts ⟨2, ![1, K]⟩) (h3 : (⟨2, ![1, K]⟩ : Shape).Broadcasts ⟨2, ![M, K]⟩)
    (r : Fin M) (k : Fin K) :
    broadcastTo ⟨2, ![M, K]⟩ (shapeCast ⟨2, ![1, K]⟩ b h2) h3 (ix2 r k) = b (ix1 k) :=
  (broadcastTo_1b_ab_apply _ h3 r k).trans (shapeCast_a_1a_apply b h2 0 k)

end Cert.Lib

end
-- ==== Proof.KI.Reg0Pay.lean ====
import proofs.«420832_j83571473646104_4_alg».proof.Proof.Gen.KernelIdeal.Skeleton
import proofs.«420832_j83571473646104_4_alg».proof.Proof.Spec
import proofs.«420832_j83571473646104_4_alg».proof.Proof.LibPlainMatmul
import proofs.«420832_j83571473646104_4_alg».proof.Proof.LibKeepdims

noncomputable section

namespace Cert.KernelIdeal.HandValue

open Idealize.ShloMosaic Idealize.ShloMosaic.ValueIdx Cert.KernelIdeal Cert.KernelIdeal.Gen Cert.Lib

theorem dot1_eq : dot_S1024x16_S16x128_S1024x128_1_0_0_1_n_n = DotDims.plain 1024 16 128 := rfl
theorem dot2_eq : dot_S1024x128_S128x128_S1024x128_1_0_0_1_n_n = DotDims.plain 1024 128 128 := rfl
theorem dot3_eq : dot_S1024x128_S128x256_S1024x256_1_0_0_1_n_n = DotDims.plain 1024 128 256 := rfl

/-- Every step of the dense block acts on each row by itself, so its row `r` is the embedding of the tile's edge `r`. -/
theorem pay15_apply (v3 : FVec Ideal S1024x16 .f32) (v5 : FVec Ideal S16x128 .f32) (v7 : FVec Ideal S128 .f32)
    (v13 : FVec Ideal S128x128 .f32) (v15 : FVec Ideal S128 .f32) (v19 : FVec Ideal S1024x1 .f32)
    (v25 : FVec Ideal S128x256 .f32) (v27 : FVec Ideal S256 .f32) (r : Fin 1024) (j : Fin 256) :
    k0_pay15 (F := Ideal) v3 v5 v7 v13 v15 v19 v25 v27 (ix2 r j)
      = Spec.embRow (fun k => v3 (ix2 r k)) (v19 (ix2 r (0 : Fin 1))) v5 v7 v13 v15 v25 v27 j := by
  unfold k0_pay15
  simp only [maximumf_apply, addf_apply, mulf_apply, broadcast_apply, shapeCast_self, biasRow_apply, broadcastTo_a1_ab_apply,
    dot1_eq, dot2_eq, dot3_eq, matmul, matmul_plain_zero_apply]
  rfl

/-- Row `r` of the stack a trip stores is its operand `r`; the last three operands are cut at zero by the stack itself. -/
theorem pay1_apply (w : Fin 16 → FVec Ideal S1x256 .f32) (r : Fin 16) (j : Fin 256) :
    k0_pay1 (F := Ideal) (w 0) (w 1) (w 2) (w 3) (w 4) (w 5) (w 6) (w 7) (w 8) (w 9) (w 10) (w 11) (w 12) (w 13) (w 14) (w 15)
        (ix2 r j)
      = if r.val < 13 then w r (ix2 (0 : Fin 1) j) else max (w r (ix2 (0 : Fin 1) j)) Spec.zero := by
  unfold k0_pay1
  rw [truncf_apply]
  let f : Fin 16 → (S1x256.Idx → Ideal .f32) := fun n =>
    if n.val < 13 then w n else maximumf (w n) (broadcast S1x256 (Scalar.ofBits (F := Ideal) .f32 0x00000000#32))
  have hcat := concatenate_ofFn_unit_apply (t := S16x256) (s₁ := S1x256) (0 : Fin 2) f
    concatenates_S1x256_S1x256_S1x256_S1x256_S1x256_S1x256_S1x256_S1x256_S1x256_S1x256_S1x256_S1x256_S1x256_S1x256_S1x256_S1x256_S16x256_d0
    rfl rfl (ix2 r j) r rfl (ix2 (0 : Fin 1) j) (fun b hb => by
      match b with
      | ⟨0, _⟩ => exact absurd rfl hb
      | ⟨1, _⟩ => rfl)
  refine hcat.trans ?_
  show (if r.val < 13 then w r else _) (ix2 (0 : Fin 1) j) = _
  split <;> rfl

end Cert.KernelIdeal.HandValue

end
-- ==== Proof.KI.Reg0Trips.lean ====
import Idealize.ShloMosaic.Lib.Pipeline.Value
import Idealize.ShloMosaic.Lib.ValueIdx

noncomputable section

namespace Cert.KernelIdeal.HandValue

open Idealize.ShloMosaic Idealize.ShloMosaic.ValueIdx

theorem stack_emb (k : ℕ) (off : Fin 2 → ℕ) (hoff : off = ![16 * k, 0])
    (inb : ∀ a, off a + (![16, 256] : Fin 2 → ℕ) a ≤ (⟨2, ![1024, 256]⟩ : Shape).size a) (r : Fin 16) (j : Fin 256)
    (h : 16 * k + r.val < 1024) :
    (Rect.unit (s := ⟨2, ![1024, 256]⟩) off ![16, 256] inb).emb (ix2 r j) = ix2 ⟨16 * k + r.val, h⟩ j := by
  subst hoff
  refine Shape.idx_ext₂ ?_ ?_
  · show 16 * k + 1 * r.val = 16 * k + r.val; omega
  · show 0 + 1 * j.val = j.val; omega

variable {Val : EltTy → Type} [∀ e, Nonempty (Val e)] {e : EltTy} (G : (⟨2, ![1024, 256]⟩ : Shape).Idx → Val e)
  (pb : ℕ → List (View.Piece Val ⟨2, ![1024, 256]⟩ e)) (h0 : pb 0 = [])
  (hs : ∀ k (hk : k < 64), ∃ (off : Fin 2 → ℕ) (_ : off = ![16 * k, 0])
      (inb : ∀ a, off a + (![16, 256] : Fin 2 → ℕ) a ≤ (⟨2, ![1024, 256]⟩ : Shape).size a)
      (w : (⟨2, ![16, 256]⟩ : Shape).Idx → Val e),
      pb (k + 1) = (⟨Rect.unit off ![16, 256] inb, w⟩ : View.Piece Val ⟨2, ![1024, 256]⟩ e) :: pb k
      ∧ ∀ (r : Fin 16) (j : Fin 256), w (ix2 r j) = G (ix2 ⟨16 * k + r.val, by omega⟩ j))

include h0 hs

/-- After `n` trips, each storing rows `16k … 16k + 15` of `G`, every stored piece agrees with `G` and every row below `16n` is under one. -/
theorem trips_pieces : ∀ n, n ≤ 64 → (∀ p ∈ pb n, ∀ x : p.1.shape.Idx, p.2 x = G (p.1.emb x))
      ∧ ∀ y : (⟨2, ![1024, 256]⟩ : Shape).Idx, (y 0).val < 16 * n → ∃ p ∈ pb n, y ∈ p.1.set
  | 0, _ => by
    rw [h0]
    exact ⟨fun p hp => absurd hp List.not_mem_nil, fun y hy => absurd hy (by omega)⟩
  | n + 1, hn => by
    obtain ⟨ih1, ih2⟩ := trips_pieces n (by omega)
    obtain ⟨off, hoff, inb, w, hpb, hw⟩ := hs n (by omega)
    rw [hpb]
    refine ⟨fun p hp x => ?_, fun y hy => ?_⟩
    · rcases List.mem_cons.mp hp with rfl | hp'
      · obtain ⟨r, j, rfl⟩ : ∃ (r : Fin 16) (j : Fin 256), x = ix2 r j := ⟨x 0, x 1, eq_ix2 x⟩
        exact (hw r j).trans (congrArg G (stack_emb n off hoff inb r j (by omega)).symm)
      · exact ih1 p hp' x
    · by_cases hlt : (y 0).val < 16 * n
      · obtain ⟨p, hp, hy'⟩ := ih2 y hlt
        exact ⟨p, List.mem_cons_of_mem _ hp, hy'⟩
      · refine ⟨_, List.mem_cons_self, ?_⟩
        subst hoff
        rw [Rect.mem_set_unit]
        intro a
        match a with
        | ⟨0, _⟩ => show 16 * n ≤ (y 0).val ∧ (y 0).val < 16 * n + 16; omega
        | ⟨1, _⟩ => show 0 ≤ (y 1).val ∧ (y 1).val < 0 + 256; have h1 : (y 1).val < 256 := idx2_lt1 y; omega

/-- So the block the 64 trips' stores leave is `G`. -/
theorem canon_trips : View.canon (pb 64) = G := by
  obtain ⟨h1, h2⟩ := trips_pieces G pb h0 hs 64 (le_refl _)
  funext y
  exact View.canon_apply_of_pieces G (pb 64) h1 y (h2 y (by have h0 : (y 0).val < 1024 := idx2_lt0 y; omega))

end Cert.KernelIdeal.HandValue

end
-- ==== Proof.KI.Reg0Loop.lean ====
import proofs.«420832_j83571473646104_4_alg».proof.Proof.Gen.KernelIdeal.Loops
import proofs.«420832_j83571473646104_4_alg».proof.Proof.KI.LoopD
import proofs.«420832_j83571473646104_4_alg».proof.Proof.KI.MsgSpec
import proofs.«420832_j83571473646104_4_alg».proof.Proof.KI.Reg0Pay
import proofs.«420832_j83571473646104_4_alg».proof.Proof.KI.Reg0Trips
import Idealize.ShloMosaic.Lib.Tactic

set_option maxRecDepth 8192
set_option maxHeartbeats 4000000

noncomputable section

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand

def blkMsg (X5 : S1024.Idx → BitVec 32) (X13 : Spec.Mat 50000 256) (X15 : Spec.Mat 1024 256) : Spec.Mat 1024 256 :=
  fun y => max (xAt X13 (X5 (ix1 (y 0))).toNat (y 1) + X15 y) Spec.zero

theorem trips_eq : k0_t1_loop.trips = 64 := by decide +kernel

theorem row_msg (X5 : S1024.Idx → Elt Ideal .i32) (X13 : S50000x256.Idx → Elt Ideal .f32) (X15 : S1024x256.Idx → Elt Ideal .f32)
    (o5 : Fin 1 → ℕ) (inb5 : ∀ a, o5 a + S1.size a ≤ S1024.size a)
    (hfirst : 0 < (Rect.unit (s := S1024) o5 S1.size inb5).toLoadRect.shape.numel)
    (o13 : BitVec 32 → Fin 2 → ℕ) (ho13 : ∀ v, o13 v = ![v.toNat, 0])
    (inb13 : ∀ a, o13 (View.ld X5 (Rect.unit (s := S1024) o5 S1.size inb5) (Shape.Idx.first hfirst)) a + S1x256.size a
      ≤ S50000x256.size a)
    (o15 : Fin 2 → ℕ) (inb15 : ∀ a, o15 a + S1x256.size a ≤ S1024x256.size a)
    (ρ : ℕ) (hρ : ρ < 1024) (h5 : o5 = ![ρ]) (h15 : o15 = ![ρ, 0]) (j : Fin 256) :
    max (View.ld X13 (Rect.unit (s := S50000x256)
            (o13 (View.ld X5 (Rect.unit (s := S1024) o5 S1.size inb5) (Shape.Idx.first hfirst))) S1x256.size inb13)
          (ix2 (0 : Fin 1) j)
        + View.ld X15 (Rect.unit (s := S1024x256) o15 S1x256.size inb15) (ix2 (0 : Fin 1) j)) Spec.zero
      = blkMsg X5 X13 X15 (ix2 ⟨ρ, hρ⟩ j) := by
  subst h5 h15
  have hw : View.ld X5 (Rect.unit (s := S1024) ![ρ] S1.size inb5) (Shape.Idx.first hfirst) = X5 (ix1 ⟨ρ, hρ⟩) := by
    show X5 _ = X5 _
    refine congrArg X5 (funext fun a => Fin.ext ?_)
    match a with
    | ⟨0, _⟩ => show ρ + 1 * 0 = ρ; omega
  generalize View.ld X5 (Rect.unit (s := S1024) ![ρ] S1.size inb5) (Shape.Idx.first hfirst) = word at hw inb13
  subst hw
  have hn : (X5 (ix1 ⟨ρ, hρ⟩)).toNat < 50000 := by
    have h0 := inb13 0
    rw [ho13] at h0
    have : (![(X5 (ix1 ⟨ρ, hρ⟩)).toNat, 0] : Fin 2 → ℕ) 0 + 1 ≤ 50000 := h0
    exact this
  unfold blkMsg
  refine congrArg₂ (fun a b => max (a + b) Spec.zero) ?_ ?_
  · show X13 _ = xAt X13 (X5 (ix1 ⟨ρ, hρ⟩)).toNat j
    unfold xAt
    rw [dif_pos hn]
    refine congrArg X13 (funext fun a => Fin.ext ?_)
    match a with
    | ⟨0, _⟩ => show o13 _ 0 + 1 * 0 = _; rw [ho13]; show (X5 (ix1 ⟨ρ, hρ⟩)).toNat + 1 * 0 = (X5 (ix1 ⟨ρ, hρ⟩)).toNat; omega
    | ⟨1, _⟩ => show o13 _ 1 + 1 * j.val = j.val; rw [ho13]; show 0 + 1 * j.val = j.val; omega
  · show X15 _ = X15 _
    refine congrArg X15 (funext fun a => Fin.ext ?_)
    match a with
    | ⟨0, _⟩ => show ρ + 1 * 0 = ρ; omega
    | ⟨1, _⟩ => show 0 + 1 * j.val = j.val; omega

theorem pay1_rows (w0 w1 w2 w3 w4 w5 w6 w7 w8 w9 w10 w11 w12 w13 w14 w15 : FVec Ideal S1x256 .f32) (r : Fin 16) (j : Fin 256) :
    k0_pay1 (F := Ideal) w0 w1 w2 w3 w4 w5 w6 w7 w8 w9 w10 w11 w12 w13 w14 w15 (ix2 r j)
      = if r.val < 13 then (![w0, w1, w2, w3, w4, w5, w6, w7, w8, w9, w10, w11, w12, w13, w14, w15] : Fin 16 → FVec Ideal S1x256 .f32) r (ix2 (0 : Fin 1) j)
        else max ((![w0, w1, w2, w3, w4, w5, w6, w7, w8, w9, w10, w11, w12, w13, w14, w15] : Fin 16 → FVec Ideal S1x256 .f32) r (ix2 (0 : Fin 1) j)) Spec.zero :=
  pay1_apply ![w0, w1, w2, w3, w4, w5, w6, w7, w8, w9, w10, w11, w12, w13, w14, w15] r j

theorem pbD_canon (𝒱 : Variants) (c : Dev nD) (bd : Option 𝒱.V) (i : grid0.Coords) (arg2 : Memref sig .tc .hbm S50000x256 .f32) (harg2 : arg2.IsWhole) (arg3 : Memref sig .tc .vmem S1024x16 .f32) (harg3 : arg3.IsWhole) (arg4 : Memref sig .tc .vmem S1024x1 .f32) (harg4 : arg4.IsWhole) (arg5 : Memref sig .tc .smem S1024 .i32) (harg5 : arg5.IsWhole) (arg6 : Memref sig .tc .vmem S16x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S128x256 .f32) (harg10 : arg10.IsWhole) (arg11 : Memref sig .tc .vmem S256 .f32) (harg11 : arg11.IsWhole) (arg12 : Memref sig .tc .vmem S1024x256 .bf16) (harg12 : arg12.IsWhole) (arg13 : Memref sig .tc .vmem S50000x256 .f32) (harg13 : arg13.IsWhole) (arg14 : DmaSems sig S_) (arg15 : Memref sig .tc .vmem S1024x256 .f32) (harg15 : arg15.IsWhole)
    (X_arg5 : BufTy.Contents (Elt Ideal) arg5.view.ty) (X_arg13 : BufTy.Contents (Elt Ideal) arg13.view.ty) (X_arg15 : BufTy.Contents (Elt Ideal) arg15.view.ty)
    (hw : ∀ (B : LoadRect S1024) (j : B.shape.Idx), BitVec.toNat (arg5.view.readAt (Elt Ideal) B X_arg5 j) < 50000) :
    View.canon (pbD_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 arg15 harg15 X_arg5 X_arg13 X_arg15 hw k0_t1_loop.trips)
      = blkMsg (arg5.view.read (Elt Ideal) X_arg5) (arg13.view.read (Elt Ideal) X_arg13) (arg15.view.read (Elt Ideal) X_arg15) := by
  rw [trips_eq]
  refine canon_trips (Val := Elt Ideal) (e := .bf16) _ (fun n => pbD_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 arg15 harg15 X_arg5 X_arg13 X_arg15 hw n) rfl fun k hk => ?_
  have hk' : k < k0_t1_loop.trips := trips_eq ▸ hk
  refine ⟨k0_off49 ⟨k, hk'⟩, k0_off49_eq ⟨k, hk'⟩, k0_off49_inb ⟨k, hk'⟩, ?w, ?h1, ?h2⟩
  case h1 =>
    refine (pbD_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 arg15 harg15 X_arg5 X_arg13 X_arg15 hw ⟨k, hk'⟩).trans ?_
    unfold tripLD_k0_t1 tripD_k0_t1
    rfl
  case h2 =>
    intro r j
    sl_unfold_words
    refine (pay1_rows _ _ _ _ _ _ _ _ _ _ _ _ _ _ _ _ r j).trans ?_
    fin_cases r
    · exact row_msg _ _ _ _ _ _ k0_off2 (fun _ => rfl) _ _ _ (16 * k + 0) (by omega) (k0_off1_eq ⟨k, hk'⟩) (k0_off3_eq ⟨k, hk'⟩) j
    · exact row_msg _ _ _ _ _ _ k0_off5 (fun _ => rfl) _ _ _ (16 * k + 1) (by omega) (k0_off4_eq ⟨k, hk'⟩) (k0_off6_eq ⟨k, hk'⟩) j
    · exact row_msg _ _ _ _ _ _ k0_off8 (fun _ => rfl) _ _ _ (16 * k + 2) (by omega) (k0_off7_eq ⟨k, hk'⟩) (k0_off9_eq ⟨k, hk'⟩) j
    · exact row_msg _ _ _ _ _ _ k0_off11 (fun _ => rfl) _ _ _ (16 * k + 3) (by omega) (k0_off10_eq ⟨k, hk'⟩) (k0_off12_eq ⟨k, hk'⟩) j
    · exact row_msg _ _ _ _ _ _ k0_off14 (fun _ => rfl) _ _ _ (16 * k + 4) (by omega) (k0_off13_eq ⟨k, hk'⟩) (k0_off15_eq ⟨k, hk'⟩) j
    · exact row_msg _ _ _ _ _ _ k0_off17 (fun _ => rfl) _ _ _ (16 * k + 5) (by omega) (k0_off16_eq ⟨k, hk'⟩) (k0_off18_eq ⟨k, hk'⟩) j
    · exact row_msg _ _ _ _ _ _ k0_off20 (fun _ => rfl) _ _ _ (16 * k + 6) (by omega) (k0_off19_eq ⟨k, hk'⟩) (k0_off21_eq ⟨k, hk'⟩) j
    · exact row_msg _ _ _ _ _ _ k0_off23 (fun _ => rfl) _ _ _ (16 * k + 7) (by omega) (k0_off22_eq ⟨k, hk'⟩) (k0_off24_eq ⟨k, hk'⟩) j
    · exact row_msg _ _ _ _ _ _ k0_off26 (fun _ => rfl) _ _ _ (16 * k + 8) (by omega) (k0_off25_eq ⟨k, hk'⟩) (k0_off27_eq ⟨k, hk'⟩) j
    · exact row_msg _ _ _ _ _ _ k0_off29 (fun _ => rfl) _ _ _ (16 * k + 9) (by omega) (k0_off28_eq ⟨k, hk'⟩) (k0_off30_eq ⟨k, hk'⟩) j
    · exact row_msg _ _ _ _ _ _ k0_off32 (fun _ => rfl) _ _ _ (16 * k + 10) (by omega) (k0_off31_eq ⟨k, hk'⟩) (k0_off33_eq ⟨k, hk'⟩) j
    · exact row_msg _ _ _ _ _ _ k0_off35 (fun _ => rfl) _ _ _ (16 * k + 11) (by omega) (k0_off34_eq ⟨k, hk'⟩) (k0_off36_eq ⟨k, hk'⟩) j
    · exact row_msg _ _ _ _ _ _ k0_off38 (fun _ => rfl) _ _ _ (16 * k + 12) (by omega) (k0_off37_eq ⟨k, hk'⟩) (k0_off39_eq ⟨k, hk'⟩) j
    · exact row_msg _ _ _ _ _ _ k0_off41 (fun _ => rfl) _ _ _ (16 * k + 13) (by omega) (k0_off40_eq ⟨k, hk'⟩) (k0_off42_eq ⟨k, hk'⟩) j
    · exact row_msg _ _ _ _ _ _ k0_off44 (fun _ => rfl) _ _ _ (16 * k + 14) (by omega) (k0_off43_eq ⟨k, hk'⟩) (k0_off45_eq ⟨k, hk'⟩) j
    · exact row_msg _ _ _ _ _ _ k0_off47 (fun _ => rfl) _ _ _ (16 * k + 15) (by omega) (k0_off46_eq ⟨k, hk'⟩) (k0_off48_eq ⟨k, hk'⟩) j

end Cert.KernelIdeal.HandValue

end
-- ==== Proof.KI.Reg0Value.lean ====
import proofs.«420832_j83571473646104_4_alg».proof.Proof.KI.Reg0
import proofs.«420832_j83571473646104_4_alg».proof.Proof.KI.Reg0Loop
import proofs.«420832_j83571473646104_4_alg».proof.Proof.Gen.KernelIdeal.Points
import proofs.«420832_j83571473646104_4_alg».proof.Proof.Gen.KernelIdeal.Launch
import Idealize.ShloMosaic.Lib.Pipeline.Value
import Idealize.ShloMosaic.Lib.ValueIdx

set_option maxRecDepth 16384

noncomputable section

namespace Cert.KernelIdeal.HandValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

theorem row_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 1) = t.val
    ∧ win0_9.index t (0 : Fin 2) = t.val ∧ win0_9.index t (1 : Fin 2) = 0 :=
  (by decide +kernel : ∀ t : Fin grid0.N, _)

theorem whole_facts0 : ∀ t : Fin cfg0.N, (∀ a, win0_3.index t a = 0) ∧ (∀ a, win0_4.index t a = 0)
    ∧ (∀ a, win0_5.index t a = 0) ∧ (∀ a, win0_6.index t a = 0) ∧ (∀ a, win0_7.index t a = 0)
    ∧ (∀ a, win0_8.index t a = 0) :=
  (by decide +kernel : ∀ t : Fin grid0.N, _)

/-- The three moving input windows' blocks at point `t` are rows `1024 t …` of the padded arrays. -/
theorem src_blk (c : Dev nD) (t : Fin cfg0.N) (ρ : Fin 1024) (h : 1024 * t.val + ρ.val < 800768) :
    (srcBlk0 V c t : Vec Ideal S1024 .i32) (ix1 ρ) = (V c main_v7 : Vec Ideal S800768 .i32) (ix1 ⟨1024 * t.val + ρ.val, h⟩) := by
  obtain ⟨-, -, -, -, e, -⟩ := row_facts0 t
  refine congrArg (V c main_v7 : Vec Ideal S800768 .i32) (funext fun a => Fin.ext ?_)
  match a with
  | ⟨0, _⟩ => show win0_2.index t (0 : Fin 1) * 1024 + 1 * ρ.val = 1024 * t.val + ρ.val; rw [e]; omega

theorem raw_blk (c : Dev nD) (t : Fin cfg0.N) (ρ : Fin 1024) (k : Fin 16) (h : 1024 * t.val + ρ.val < 800768) :
    (blk0_0 V c t : Vec Ideal S1024x16 .f32) (ix2 ρ k) = (V c main_v8 : Vec Ideal S800768x16 .f32) (ix2 ⟨1024 * t.val + ρ.val, h⟩ k) := by
  obtain ⟨e0, e1, -⟩ := row_facts0 t
  refine congrArg (V c main_v8 : Vec Ideal S800768x16 .f32) (Shape.idx_ext₂ ?_ ?_)
  · show win0_0.index t (0 : Fin 2) * 1024 + 1 * ρ.val = 1024 * t.val + ρ.val; rw [e0]; omega
  · show win0_0.index t (1 : Fin 2) * 16 + 1 * k.val = k.val; rw [e1]; omega

theorem pol_blk (c : Dev nD) (t : Fin cfg0.N) (ρ : Fin 1024) (h : 1024 * t.val + ρ.val < 800768) :
    (blk0_1 V c t : Vec Ideal S1024x1 .f32) (ix2 ρ (0 : Fin 1))
      = (V c main_v9 : Vec Ideal S800768x1 .f32) (ix2 ⟨1024 * t.val + ρ.val, h⟩ (0 : Fin 1)) := by
  obtain ⟨-, -, e0, e1, -⟩ := row_facts0 t
  refine congrArg (V c main_v9 : Vec Ideal S800768x1 .f32) (Shape.idx_ext₂ ?_ ?_)
  · show win0_1.index t (0 : Fin 2) * 1024 + 1 * ρ.val = 1024 * t.val + ρ.val; rw [e0]; omega
  · show win0_1.index t (1 : Fin 2) * 1 + 1 * 0 = 0; rw [e1]

/-- A window whose block index is zero on every axis holds its whole array at every point: the six weight windows. -/
theorem w_blks (c : Dev nD) (t : Fin cfg0.N) :
    (blk0_3 V c t : Vec Ideal S16x128 .f32) = V c main_arg3 ∧ (blk0_4 V c t : Vec Ideal S128 .f32) = V c main_arg4
    ∧ (blk0_5 V c t : Vec Ideal S128x128 .f32) = V c main_arg5 ∧ (blk0_6 V c t : Vec Ideal S128 .f32) = V c main_arg6
    ∧ (blk0_7 V c t : Vec Ideal S128x256 .f32) = V c main_arg7 ∧ (blk0_8 V c t : Vec Ideal S256 .f32) = V c main_arg8 := by
  obtain ⟨e3, e4, e5, e6, e7, e8⟩ := whole_facts0 t
  exact ⟨funext fun y => congrArg (V c main_arg3) (funext fun a => Fin.ext (win0_3.rect_emb_val_of_index_zero t a (e3 a) y)),
    funext fun y => congrArg (V c main_arg4) (funext fun a => Fin.ext (win0_4.rect_emb_val_of_index_zero t a (e4 a) y)),
    funext fun y => congrArg (V c main_arg5) (funext fun a => Fin.ext (win0_5.rect_emb_val_of_index_zero t a (e5 a) y)),
    funext fun y => congrArg (V c main_arg6) (funext fun a => Fin.ext (win0_6.rect_emb_val_of_index_zero t a (e6 a) y)),
    funext fun y => congrArg (V c main_arg7) (funext fun a => Fin.ext (win0_7.rect_emb_val_of_index_zero t a (e7 a) y)),
    funext fun y => congrArg (V c main_arg8) (funext fun a => Fin.ext (win0_8.rect_emb_val_of_index_zero t a (e8 a) y))⟩

theorem blkMsg_eq_msgArr (x : Spec.Mat 50000 256) (rawp : Spec.Mat 800768 16) (polp : Spec.Mat 800768 1)
    (srcp : (⟨1, ![800768]⟩ : Shape).Idx → BitVec 32)
    (ew1 : Spec.Mat 16 128) (eb1 : Spec.Vc 128) (ew2 : Spec.Mat 128 128) (eb2 : Spec.Vc 128)
    (lew : Spec.Mat 128 256) (leb : Spec.Vc 256)
    (X5 : S1024.Idx → BitVec 32) (rawb : FVec Ideal S1024x16 .f32) (polb : FVec Ideal S1024x1 .f32) (T : ℕ) (hT : T < 782)
    (h5 : ∀ ρ : Fin 1024, X5 (ix1 ρ) = srcp (ix1 ⟨1024 * T + ρ.val, by omega⟩))
    (hraw : ∀ (ρ : Fin 1024) (k : Fin 16), rawb (ix2 ρ k) = rawp (ix2 ⟨1024 * T + ρ.val, by omega⟩ k))
    (hpol : ∀ ρ : Fin 1024, polb (ix2 ρ (0 : Fin 1)) = polp (ix2 ⟨1024 * T + ρ.val, by omega⟩ (0 : Fin 1)))
    (ρ : Fin 1024) (j : Fin 256) :
    blkMsg X5 x (k0_pay15 (F := Ideal) rawb ew1 eb1 ew2 eb2 polb lew leb) (ix2 ρ j)
      = msgArr x rawp polp srcp ew1 eb1 ew2 eb2 lew leb (ix2 ⟨1024 * T + ρ.val, by omega⟩ j) := by
  unfold blkMsg msgArr Spec.msgRow
  show max (xAt x (X5 (ix1 ρ)).toNat j + k0_pay15 (F := Ideal) rawb ew1 eb1 ew2 eb2 polb lew leb (ix2 ρ j)) Spec.zero = _
  rw [pay15_apply, h5 ρ, hpol ρ, show (fun k => rawb (ix2 ρ k)) = Spec.rowOf rawp ⟨1024 * T + ρ.val, by omega⟩ from funext (hraw ρ)]

theorem outAt0_val (hH : Hyps0 V) (c : Dev nD) (t : Fin cfg0.N) :
    (outAt0 V c t : Vec Ideal S1024x256 .bf16)
      = blkMsg (srcBlk0 V c t) (xArr0 V c)
          (k0_pay15 (F := Ideal) (blk0_0 V c t) (blk0_3 V c t) (blk0_4 V c t) (blk0_5 V c t) (blk0_6 V c t) (blk0_1 V c t)
            (blk0_7 V c t) (blk0_8 V c t)) := by
  rw [outAt0_eq V hH, View.read_writes_junk_eq_canon]
  unfold L0At L0
  rw [pbD_canon, View.read_rep, read_X13_0, xOf0_entry, read_X15_0]

abbrev msgArrV (c : Dev nD) : Spec.Mat 800768 256 :=
  msgArr (V c main_arg0) (V c main_v8) (V c main_v9) (V c main_v7) (V c main_arg3) (V c main_arg4) (V c main_arg5)
    (V c main_arg6) (V c main_arg7) (V c main_arg8)

/-- What point `t` writes back is block `t` of the array of messages. -/
theorem flushed9_eq (hH : Hyps0 V) (c : Dev nD) (t : Fin cfg0.N) :
    (dat0 (F := Ideal) V c).flushed 9 t = ((cfg0.win 9).blk t).view.read (Elt Ideal) (msgArrV V c) := by
  show (cfg0.win 9).cut (grid0.coords t) ((dat0 V c).after 9 t) = _
  obtain ⟨h3, h4, h5, h6, h7, h8⟩ := w_blks V c t
  obtain ⟨-, -, -, -, -, e0, e1⟩ := row_facts0 t
  rw [after0_9, outAt0_val V hH c t, h3, h4, h5, h6, h7, h8]
  have ht : t.val < 782 := N_0 ▸ t.isLt
  funext y
  obtain ⟨ρ, j, rfl⟩ : ∃ (ρ : Fin 1024) (j : Fin 256), y = ix2 ρ j := ⟨y 0, y 1, eq_ix2 y⟩
  have hemb : (((cfg0.win 9).blk t).view.emb (ix2 ρ j) : S800768x256.Idx) = ix2 ⟨1024 * t.val + ρ.val, by omega⟩ j := by
    refine Shape.idx_ext₂ ?_ ?_
    · show win0_9.index t (0 : Fin 2) * 1024 + 1 * ρ.val = 1024 * t.val + ρ.val; rw [e0]; omega
    · show win0_9.index t (1 : Fin 2) * 256 + 1 * j.val = j.val; rw [e1]; omega
  show blkMsg (srcBlk0 V c t) (xArr0 V c) _ (ix2 ρ j) = msgArrV V c (((cfg0.win 9).blk t).view.emb (ix2 ρ j))
  rw [hemb]
  exact blkMsg_eq_msgArr (V c main_arg0) (V c main_v8) (V c main_v9) (V c main_v7) (V c main_arg3) (V c main_arg4)
    (V c main_arg5) (V c main_arg6) (V c main_arg7) (V c main_arg8) (srcBlk0 V c t) (blk0_0 V c t) (blk0_1 V c t) t.val ht
    (fun ρ => src_blk V c t ρ (by omega)) (fun ρ k => raw_blk V c t ρ k (by omega)) (fun ρ => pol_blk V c t ρ (by omega)) ρ j

/-- The 782 blocks tile the array: row `e` is row `e % 1024` of the block of point `e / 1024`. -/
theorem cover9 (i : S800768x256.Idx) :
    ∃ t : Fin cfg0.N, (cfg0.win 9).flush t = true ∧ i ∈ ((cfg0.win 9).blk t).view.set := by
  have h0 : (i 0).val < 800768 := idx2_lt0 i
  have hq : (i 0).val / 1024 < cfg0.N := by rw [show cfg0.N = 782 from N_0]; omega
  obtain ⟨-, -, -, -, -, e0, e1⟩ := row_facts0 ⟨(i 0).val / 1024, hq⟩
  refine ⟨⟨(i 0).val / 1024, hq⟩, flush0_9 _, Finset.mem_map.mpr
    ⟨ix2 ⟨(i 0).val % 1024, Nat.mod_lt _ (by decide)⟩ (i 1), Finset.mem_univ _, Shape.idx_ext₂ ?_ ?_⟩⟩
  · show win0_9.index ⟨(i 0).val / 1024, hq⟩ (0 : Fin 2) * 1024 + 1 * ((i 0).val % 1024) = (i 0).val
    rw [e0]
    show (i 0).val / 1024 * 1024 + 1 * ((i 0).val % 1024) = (i 0).val
    omega
  · show win0_9.index ⟨(i 0).val / 1024, hq⟩ (1 : Fin 2) * 256 + 1 * (i 1).val = (i 1).val
    rw [e1]; omega

theorem final0 (hH : Hyps0 V) (c : Dev nD) :
    (dat0 (F := Ideal) V c).arrAt 9 cfg0.N
      = msgArr (V c main_arg0) (V c main_v8) (V c main_v9) (V c main_v7) (V c main_arg3) (V c main_arg4) (V c main_arg5)
          (V c main_arg6) (V c main_arg7) (V c main_arg8) :=
  (dat0 (F := Ideal) V c).arrAt_eq_of_cover 9 (msgArrV V c) (fun t _ => flushed9_eq V hH c t) (cover9)

end Cert.KernelIdeal.HandValue

end
-- ==== Proof.KI.Reg1Value.lean ====
import proofs.«420832_j83571473646104_4_alg».proof.Proof.KI.Reg1
import proofs.«420832_j83571473646104_4_alg».proof.Proof.Spec
import proofs.«420832_j83571473646104_4_alg».proof.Proof.LibPlainMatmul
import proofs.«420832_j83571473646104_4_alg».proof.Proof.LibKeepdims

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.Lib

theorem laneSum_apply (X : FVec Ideal S2000x256 .f32) (r : Fin 2000) :
    Ideal.reduceAdd reduces_S2000x256_S2000 X (ix1 r) = ∑ k : Fin 256, X (ix2 r k) :=
  (Ideal.reduceAdd_single reduces_S2000x256_S2000 X (ix1 r)).trans (Finset.sum_congr rfl fun k _ => congrArg X (eq_ix2 _))

theorem rsqrt_at {s : Shape} (a : FVec Ideal s .f32) (i : s.Idx) : rsqrt a i = Ideal.rsqrt (a i) := rfl

theorem dense_at (x : FVec Ideal S2000x256 .f32) (w : FVec Ideal S256x256 .f32) (r : Fin 2000) (j : Fin 256) :
    matmul dot_S2000x256_S256x256_S2000x256_1_0_0_1_n_n none x w (constant S2000x256 .f32 0x00000000#32) (ix2 r j)
      = Spec.proj (fun k => x (ix2 r k)) w j :=
  matmul_plain_zero_apply 2000 256 256 none x w r j

/-- Every step of the body acts on each row by itself, so at `(r, j)` it is the node network on the sum of the two input rows `r`. -/
theorem pay_apply (v0 v1 : Vec Ideal S2000x256 .f32) (v4 : Vec Ideal S256x256 .f32) (v6 v28 v32 : Vec Ideal S256 .f32)
    (v38 : Vec Ideal S256x256 .f32) (v40 : Vec Ideal S256 .f32) (r : Fin 2000) (j : Fin 256) :
    k1_pay1 (k1_pay2 v0 v1 v4 v6 v28 v32 v38) v40 (ix2 r j)
      = Spec.postRow (fun k => v0 (ix2 r k) + v1 (ix2 r k)) v4 v6 v28 v32 v38 v40 j := by
  unfold k1_pay1 k1_pay2
  delta multiReduction
  simp only [Ideal.reduceAdd_def, maximumf_apply, addf_apply, mulf_apply, subf_apply, divf_apply, broadcast_apply, rsqrt_at, shapeCast_self,
    biasRow_apply, broadcastTo_a1_ab_apply, shapeCast_a_a1_apply, laneSum_apply, dense_at]
  rfl

theorem hz2 : (![0, 0] : Fin 2 → Nat) = fun _ => 0 := funext fun a => by fin_cases a <;> rfl
theorem hz1 : (![0] : Fin 1 → Nat) = fun _ => 0 := funext fun a => by fin_cases a; rfl

def postArr (x aggr : Spec.Mat 50000 256) (w1 : Spec.Mat 256 256) (b1 g b : Spec.Vc 256) (w2 : Spec.Mat 256 256) (b2 : Spec.Vc 256) :
    Spec.Mat 50000 256 :=
  fun i => Spec.postRow (fun k => x (ix2 (i 0) k) + aggr (ix2 (i 0) k)) w1 b1 g b w2 b2 (i 1)

theorem out1_8_apply (x0 x1 : Vec Ideal S2000x256 .f32) (x2 : Vec Ideal S256x256 .f32) (x3 x4 x5 : Vec Ideal S256 .f32) (x6 : Vec Ideal S256x256 .f32) (x7 : Vec Ideal S256 .f32) (r : Fin 2000) (j : Fin 256) :
    out1_8 x0 x1 x2 x3 x4 x5 x6 x7 (ix2 r j) = Spec.postRow (fun k => x0 (ix2 r k) + x1 (ix2 r k)) x2 x3 x4 x5 x6 x7 j := by
  unfold out1_8
  rw [View.canon_unit_zero hz2]
  simp only [View.ld_unit_zero (S := S2000x256) hz2, View.ld_unit_zero (S := S256x256) hz2, View.ld_unit_zero (S := S256) hz1]
  exact pay_apply x0 x1 x2 x3 x4 x5 x6 x7 r j

theorem row_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_8.index t (0 : Fin 2) = t.val ∧ win1_8.index t (1 : Fin 2) = 0 :=
  (by decide +kernel : ∀ t : Fin grid1.N, _)

theorem whole_facts1 : ∀ t : Fin cfg1.N, (∀ a, win1_2.index t a = 0) ∧ (∀ a, win1_3.index t a = 0)
    ∧ (∀ a, win1_4.index t a = 0) ∧ (∀ a, win1_5.index t a = 0) ∧ (∀ a, win1_6.index t a = 0)
    ∧ (∀ a, win1_7.index t a = 0) :=
  (by decide +kernel : ∀ t : Fin grid1.N, _)

theorem block_post (X A : Spec.Mat 50000 256) (w1 : Spec.Mat 256 256) (b1 g b : Spec.Vc 256) (w2 : Spec.Mat 256 256) (b2 : Spec.Vc 256)
    (x0 x1 : Vec Ideal S2000x256 .f32) (T : ℕ)
    (h0 : ∀ (y : S2000x256.Idx) (i : S50000x256.Idx), (i 0).val = 2000 * T + (y 0).val → (i 1).val = (y 1).val → x0 y = X i)
    (h1 : ∀ (y : S2000x256.Idx) (i : S50000x256.Idx), (i 0).val = 2000 * T + (y 0).val → (i 1).val = (y 1).val → x1 y = A i)
    (y : S2000x256.Idx) (i : S50000x256.Idx) (hi0 : (i 0).val = 2000 * T + (y 0).val) (hi1 : (i 1).val = (y 1).val) :
    out1_8 x0 x1 w1 b1 g b w2 b2 y = postArr X A w1 b1 g b w2 b2 i := by
  obtain ⟨r, j, rfl⟩ : ∃ (r : Fin 2000) (j : Fin 256), y = ix2 r j := ⟨y 0, y 1, eq_ix2 y⟩
  obtain ⟨p, q, rfl⟩ : ∃ (p : Fin 50000) (q : Fin 256), i = ix2 p q := ⟨i 0, i 1, eq_ix2 i⟩
  obtain rfl : q = j := Fin.ext hi1
  rw [out1_8_apply]
  show Spec.postRow _ w1 b1 g b w2 b2 q = Spec.postRow (fun k => X (ix2 p k) + A (ix2 p k)) w1 b1 g b w2 b2 q
  congr 1
  funext k
  rw [h0 (ix2 r k) (ix2 p k) hi0 rfl, h1 (ix2 r k) (ix2 p k) hi0 rfl]

section Array

variable (V : (c : Dev nD) → (b : Ref sig .tc) → Buf (Elt Ideal) ((c : Thread nD τ).loc b))

/-- The two row windows' blocks at point `t` are rows `[2000 t, 2000 t + 2000)` of their arrays. -/
theorem iblk1_rows (c : Dev nD) (t : Fin cfg1.N) (y : S2000x256.Idx) (i : S50000x256.Idx)
    (h0 : (i 0).val = 2000 * t.val + (y 0).val) (h1 : (i 1).val = (y 1).val) :
    (iblk1 V c 0 t : Vec Ideal S2000x256 .f32) y = (V c main_arg0 : S50000x256.Idx → EReal) i
    ∧ (iblk1 V c 1 t : Vec Ideal S2000x256 .f32) y = (V c main_v15 : S50000x256.Idx → EReal) i := by
  obtain ⟨e0, e1, e2, e3, -⟩ := row_facts1 t
  refine ⟨congrArg (V c main_arg0 : S50000x256.Idx → EReal) (Shape.idx_ext₂ ?_ ?_),
    congrArg (V c main_v15 : S50000x256.Idx → EReal) (Shape.idx_ext₂ ?_ ?_)⟩
  · show win1_0.index t (0 : Fin 2) * 2000 + 1 * (y 0).val = (i 0).val; rw [e0, h0]; omega
  · show win1_0.index t (1 : Fin 2) * 256 + 1 * (y 1).val = (i 1).val; rw [e1, h1]; omega
  · show win1_1.index t (0 : Fin 2) * 2000 + 1 * (y 0).val = (i 0).val; rw [e2, h0]; omega
  · show win1_1.index t (1 : Fin 2) * 256 + 1 * (y 1).val = (i 1).val; rw [e3, h1]; omega

/-- A window whose block index is zero on every axis holds its whole array at every point. -/
theorem iblk1_whole (c : Dev nD) (t : Fin cfg1.N) :
    (iblk1 V c 2 t : Vec Ideal S256x256 .f32) = (V c main_arg9 : S256x256.Idx → EReal)
    ∧ (iblk1 V c 3 t : Vec Ideal S256 .f32) = (V c main_arg10 : S256.Idx → EReal)
    ∧ (iblk1 V c 4 t : Vec Ideal S256 .f32) = (V c main_arg11 : S256.Idx → EReal)
    ∧ (iblk1 V c 5 t : Vec Ideal S256 .f32) = (V c main_arg12 : S256.Idx → EReal)
    ∧ (iblk1 V c 6 t : Vec Ideal S256x256 .f32) = (V c main_arg13 : S256x256.Idx → EReal)
    ∧ (iblk1 V c 7 t : Vec Ideal S256 .f32) = (V c main_arg14 : S256.Idx → EReal) := by
  obtain ⟨e2, e3, e4, e5, e6, e7⟩ := whole_facts1 t
  exact ⟨funext fun y => congrArg (V c main_arg9) (funext fun a => Fin.ext (win1_2.rect_emb_val_of_index_zero t a (e2 a) y)),
    funext fun y => congrArg (V c main_arg10) (funext fun a => Fin.ext (win1_3.rect_emb_val_of_index_zero t a (e3 a) y)),
    funext fun y => congrArg (V c main_arg11) (funext fun a => Fin.ext (win1_4.rect_emb_val_of_index_zero t a (e4 a) y)),
    funext fun y => congrArg (V c main_arg12) (funext fun a => Fin.ext (win1_5.rect_emb_val_of_index_zero t a (e5 a) y)),
    funext fun y => congrArg (V c main_arg13) (funext fun a => Fin.ext (win1_6.rect_emb_val_of_index_zero t a (e6 a) y)),
    funext fun y => congrArg (V c main_arg14) (funext fun a => Fin.ext (win1_7.rect_emb_val_of_index_zero t a (e7 a) y))⟩

theorem flushed1_eq (c : Dev nD) (t : Fin cfg1.N) :
    (dat1 (F := Ideal) V c).flushed 8 t = ((cfg1.win 8).blk t).view.read (Elt Ideal) (postArr (V c main_arg0) (V c main_v15) (V c main_arg9) (V c main_arg10) (V c main_arg11) (V c main_arg12) (V c main_arg13) (V c main_arg14)) := by
  obtain ⟨-, -, -, -, e0, e1⟩ := row_facts1 t
  show (cfg1.win 8).cut (grid1.coords t) ((dat1 (F := Ideal) V c).after 8 t) = _
  obtain ⟨h2, h3, h4, h5, h6, h7⟩ := iblk1_whole V c t
  rw [after1_8, h2, h3, h4, h5, h6, h7]
  funext y
  rw [View.read_apply]
  refine block_post (V c main_arg0) (V c main_v15) (V c main_arg9) (V c main_arg10) (V c main_arg11) (V c main_arg12)
    (V c main_arg13) (V c main_arg14) (iblk1 V c 0 t) (iblk1 V c 1 t) t.val
    (fun y i h0 h1 => (iblk1_rows V c t y i h0 h1).1) (fun y i h0 h1 => (iblk1_rows V c t y i h0 h1).2) y _ ?_ ?_
  · show win1_8.index t (0 : Fin 2) * 2000 + 1 * (y 0).val = 2000 * t.val + (y 0).val
    rw [e0]; omega
  · show win1_8.index t (1 : Fin 2) * 256 + 1 * (y 1).val = (y 1).val
    rw [e1]; omega

/-- The 25 blocks tile the array: row `n` is row `n % 2000` of the block of point `n / 2000`. -/
theorem cover1 (i : S50000x256.Idx) :
    ∃ t : Fin cfg1.N, (cfg1.win 8).flush t = true ∧ i ∈ ((cfg1.win 8).blk t).view.set := by
  have hi0 : (i 0).val < 50000 := idx2_lt0 i
  have ht : (i 0).val / 2000 < cfg1.N := by rw [show cfg1.N = 25 from N_1]; omega
  obtain ⟨-, -, -, -, e0, e1⟩ := row_facts1 ⟨(i 0).val / 2000, ht⟩
  refine ⟨⟨(i 0).val / 2000, ht⟩, flush1_8 _, Finset.mem_map.mpr
    ⟨ix2 ⟨(i 0).val % 2000, Nat.mod_lt _ (by decide)⟩ (i 1), Finset.mem_univ _, Shape.idx_ext₂ ?_ ?_⟩⟩
  · show win1_8.index ⟨(i 0).val / 2000, ht⟩ (0 : Fin 2) * 2000 + 1 * ((i 0).val % 2000) = (i 0).val
    rw [e0]
    show (i 0).val / 2000 * 2000 + 1 * ((i 0).val % 2000) = (i 0).val
    omega
  · show win1_8.index ⟨(i 0).val / 2000, ht⟩ (1 : Fin 2) * 256 + 1 * (i 1).val = (i 1).val
    rw [e1]; omega

theorem final1 (c : Dev nD) :
    (dat1 (F := Ideal) V c).arrAt 8 cfg1.N = postArr (V c main_arg0) (V c main_v15) (V c main_arg9) (V c main_arg10) (V c main_arg11) (V c main_arg12) (V c main_arg13) (V c main_arg14) :=
  (dat1 (F := Ideal) V c).arrAt_eq_of_cover 8 _ (fun t _ => flushed1_eq V c t) (fun i => cover1 i)

end Array

end Cert.KernelIdeal.HandValue

end
-- ==== Proof.KI.PadSum.lean ====
import proofs.«420832_j83571473646104_4_alg».proof.Proof.Spec
import Mathlib.Algebra.BigOperators.Fin

noncomputable section

namespace Cert.PadSum

open Idealize.ShloMosaic Idealize.ShloMosaic.ValueIdx

def up (e : Fin 800000) : Fin 800768 := ⟨e.val, Nat.lt_of_lt_of_le e.isLt (by decide)⟩

@[simp] theorem up_val (e : Fin 800000) : (up e).val = e.val := rfl

theorem sum_padded {M : Type*} [AddCommMonoid M] (f : Fin 800768 → M)
    (hz : ∀ e : Fin 800768, 800000 ≤ e.val → f e = 0) :
    ∑ e : Fin 800768, f e = ∑ e : Fin 800000, f (up e) := by
  have h := Fin.sum_univ_add (a := 800000) (b := 768) (f := (f : Fin (800000 + 768) → M))
  rw [Finset.sum_eq_zero (s := Finset.univ) (f := fun i : Fin 768 => f (Fin.natAdd 800000 i))
    (fun i _ => hz _ (Nat.le_add_right _ _)), add_zero] at h
  exact h

/-- The padding word 50000 is the index of no node. -/
theorem padWord_ne_node (n : Fin 50000) : (50000#32 : BitVec 32).toInt ≠ (n.val : Int) := by
  rw [show (50000#32 : BitVec 32).toInt = 50000 by decide]
  have := n.isLt
  omega

/-- With every row from 800000 on sent to the padding word, what reaches node `n` over the padded list is what reaches it over the original. -/
theorem aggr_padded_eq (dstp : Fin 800768 → BitVec 32) (msgp : Fin 800768 → EReal)
    (dst : Fin 800000 → BitVec 32) (msg : Fin 800000 → EReal)
    (hpad : ∀ e : Fin 800768, 800000 ≤ e.val → dstp e = 50000#32)
    (hdst : ∀ e : Fin 800000, dstp (up e) = dst e) (hmsg : ∀ e : Fin 800000, msgp (up e) = msg e) (n : Fin 50000) :
    (∑ e : Fin 800768, if (dstp e).toInt = (n.val : Int) then msgp e else 0)
      = ∑ e : Fin 800000, if (dst e).toInt = (n.val : Int) then msg e else 0 := by
  rw [sum_padded _ fun e he => by rw [hpad e he, if_neg (padWord_ne_node n)]]
  exact Finset.sum_congr rfl fun e _ => by rw [hdst e, hmsg e]

theorem postRow_congr (x aggK : Spec.Mat 50000 256) (aggR : Fin 50000 → Fin 256 → EReal)
    (h : ∀ (n : Fin 50000) (k : Fin 256), aggK (ix2 n k) = aggR n k)
    (w1 : Spec.Mat 256 256) (b1 g b : Spec.Vc 256) (w2 : Spec.Mat 256 256) (b2 : Spec.Vc 256) :
    (fun i : (⟨2, ![50000, 256]⟩ : Shape).Idx =>
        Spec.postRow (fun k => x (ix2 (i 0) k) + aggK (ix2 (i 0) k)) w1 b1 g b w2 b2 (i 1))
      = fun i => Spec.postRow (fun k => x (ix2 (i 0) k) + aggR (i 0) k) w1 b1 g b w2 b2 (i 1) := by
  funext i
  exact congrArg (fun r : Fin 256 → EReal => Spec.postRow r w1 b1 g b w2 b2 (i 1))
    (funext fun k => congrArg (x (ix2 (i 0) k) + ·) (h (i 0) k))

end Cert.PadSum

end
-- ==== Proof.KI.HostTerms.lean ====
import proofs.«420832_j83571473646104_4_alg».proof.Proof.Gen.KernelIdeal.Regions
import proofs.«420832_j83571473646104_4_alg».proof.Proof.KI.PadSum
import Idealize.ShloMosaic.Lib.KernelVsHost
import Idealize.ShloMosaic.Lib.ValueLayout

noncomputable section

namespace Cert.KernelIdeal.HostValue

open Idealize.ShloMosaic Idealize.ShloMosaic.ValueIdx Idealize.ShloMosaic.TcCoe
open Cert.KernelIdeal Cert.KernelIdeal.Gen Cert.PadSum

section Terms

variable {α : Type}

theorem padVec_up (x : S800000.Idx → α) {u : Shape} (v : u.Idx → α) (h : S800000.Pads ![0] ![768] ![0] S800768)
    (hu : 0 < u.numel) (e : Fin 800000) :
    pad S800768 ![0] ![768] ![0] x v h hu (ix1 (up e)) = x (ix1 e) :=
  pad_apply_of_inside _ _ _ x v h hu (ix1 (up e)) (ix1 e) fun a => by
    match a with
    | ⟨0, _⟩ => show (up e).val = 0 + e.val * (0 + 1); rw [up_val]; omega

theorem padVec_high (x : S800000.Idx → α) {u : Shape} (v : u.Idx → α) (h : S800000.Pads ![0] ![768] ![0] S800768)
    (hu : 0 < u.numel) (e : Fin 800768) (he : 800000 ≤ e.val) :
    pad S800768 ![0] ![768] ![0] x v h hu (ix1 e) = v (Shape.Idx.first hu) :=
  pad_apply_of_not_inside _ _ _ x v h hu (ix1 e) 0 fun hin => by
    have h3 : (e.val - 0) / (0 + 1) < 800000 := hin.2.2
    omega

theorem padMat_up {C : Nat} (x : (⟨2, ![800000, C]⟩ : Shape).Idx → α) {u : Shape} (v : u.Idx → α)
    (h : (⟨2, ![800000, C]⟩ : Shape).Pads ![0, 0] ![768, 0] ![0, 0] ⟨2, ![800768, C]⟩) (hu : 0 < u.numel)
    (e : Fin 800000) (j : Fin C) :
    pad ⟨2, ![800768, C]⟩ ![0, 0] ![768, 0] ![0, 0] x v h hu (ix2 (up e) j) = x (ix2 e j) :=
  pad_apply_of_inside _ _ _ x v h hu (ix2 (up e) j) (ix2 e j) fun a => by
    match a with
    | ⟨0, _⟩ => show (up e).val = 0 + e.val * (0 + 1); rw [up_val]; omega
    | ⟨1, _⟩ => show j.val = 0 + j.val * (0 + 1); omega

theorem sliceRow_apply (ei : S2x800000.Idx → α) (r : Fin 2) (o : Nat) (ho : o = r.val)
    (hs : S2x800000.Slices ![o, 0] S1x800000) (hc : S1x800000.ShapeCasts S800000) (e : Fin 800000) :
    shapeCast S800000 (extractStridedSlice S1x800000 ![o, 0] ei hs) hc (ix1 e) = ei (ix2 r e) :=
  (shapeCast_1a_a_apply _ hc e).trans (slice2_axis0_apply o ei hs 0 e r (by omega))

theorem slicePol_apply (ea : S800000x17.Idx → α) (hs : S800000x17.Slices ![0, 0] S800000x1) (e : Fin 800000) :
    extractStridedSlice S800000x1 ![0, 0] ea hs (ix2 e (0 : Fin 1)) = ea (ix2 e (0 : Fin 17)) :=
  slice2_axis1_apply 0 ea hs e 0 0 rfl

theorem sliceRaw_apply (ea : S800000x17.Idx → α) (hs : S800000x17.Slices ![0, 1] S800000x16) (e : Fin 800000)
    (j : Fin 16) :
    extractStridedSlice S800000x16 ![0, 1] ea hs (ix2 e j) = ea (ix2 e (⟨j.val + 1, by omega⟩ : Fin 17)) :=
  slice2_axis1_apply 1 ea hs e j _ (Nat.add_comm _ _)

end Terms

section IdealTerms

theorem clip_apply (p : FVec Ideal S800000x1 .f32) (hb : S_.BroadcastsInDim S800000x1 (![] : Fin 0 → Fin S800000x1.rank))
    (e : Fin 800000) :
    minimumf (broadcastInDim S800000x1 ![] hb (constant (F := Ideal) S_ .f32 0x3F800000#32))
        (maximumf (broadcastInDim S800000x1 ![] hb (constant (F := Ideal) S_ .f32 0x00000000#32)) p) (ix2 e (0 : Fin 1))
      = Spec.clip01 (p (ix2 e (0 : Fin 1))) := by
  unfold Spec.clip01
  rw [minimumf_apply, maximumf_apply,
    broadcastInDim_apply _ hb _ (ix2 e (0 : Fin 1)) ix0 (fun a => a.elim0),
    broadcastInDim_apply _ hb _ (ix2 e (0 : Fin 1)) ix0 (fun a => a.elim0), constant_apply, constant_apply]
  exact min_comm _ _

theorem dstCol_apply (dstp : IVec S800768 32) (hb : S800768.BroadcastsInDim S800768x1 (![0] : Fin 1 → Fin S800768x1.rank))
    (e : Fin 800768) :
    broadcastInDim S800768x1 ![0] hb dstp (ix2 e (0 : Fin 1)) = dstp (ix1 e) :=
  broadcastInDim_apply _ hb dstp (ix2 e (0 : Fin 1)) (ix1 e) fun a => by
    match a with
    | ⟨0, _⟩ => show e.val = if (800768 : Nat) = 1 then 0 else e.val; rw [if_neg (by decide)]

end IdealTerms

end Cert.KernelIdeal.HostValue

end
-- ==== Proof.KI.HostValue.lean ====
import proofs.«420832_j83571473646104_4_alg».proof.Proof.KI.HostTerms
import proofs.«420832_j83571473646104_4_alg».proof.Proof.LibScatterRows
import Idealize.ShloMosaic.Lib.StableHlo.Run

set_option maxRecDepth 16384

noncomputable section

namespace Cert.KernelIdeal.HostValue

open Idealize.ShloMosaic Idealize.ShloMosaic.ValueIdx Idealize.ShloMosaic.TcCoe
open Cert.KernelIdeal Cert.KernelIdeal.Gen Cert.PadSum

theorem scatter_rows_at (z : Spec.Mat 50000 256) (idx : IVec S800768x1 32) (upd : Spec.Mat 800768 256)
    (n : Fin 50000) (k : Fin 256) :
    Host.scatterAdd (F := Ideal) (φ := .f32) scatter_S50000x256_S800768x1_S800768x256_1_0_0_1 z idx upd (ix2 n k)
      = z (ix2 n k) + ∑ e : Fin 800768, if (idx (ix2 e (0 : Fin 1))).toInt = (n.val : Int) then upd (ix2 e k) else 0 :=
  ScatterRows.scatterAdd_apply Gen.scatter_S50000x256_S800768x1_S800768x256_1_0_0_1_wf z idx upd n k

theorem after_hostOps1_v15 (W : Valuation τ sig (Elt Ideal)) :
    (StableHlo.after hostOps1 W (Proc.devRef .tc main_v15) : FVec Ideal S50000x256 .f32)
      = Host.scatterAdd (F := Ideal) (φ := .f32) scatter_S50000x256_S800768x1_S800768x256_1_0_0_1
          (broadcastInDim S50000x256 ![] bcast_S_S50000x256 (constant (F := Ideal) S_ .f32 0x00000000#32))
          (broadcastInDim S800768x1 ![0] bcast_S800768_S800768x1_0 (W (Proc.devRef .tc main_v10) : IVec S800768 32))
          (extf .f32 (W (Proc.devRef .tc main_v11) : FVec Ideal S800768x256 .bf16) bitsLt_bf16_f32) := by
  after_results <;> rfl

abbrev dstOf (W : Valuation τ sig (Elt Ideal)) : IVec S800768 32 := W (Proc.devRef .tc main_v10)

abbrev msgOf (W : Valuation τ sig (Elt Ideal)) : Spec.Mat 800768 256 := W (Proc.devRef .tc main_v11)

abbrev aggrOf (W : Valuation τ sig (Elt Ideal)) : Spec.Mat 50000 256 :=
  StableHlo.after hostOps1 W (Proc.devRef .tc main_v15)

/-- The aggregation at `(n, k)`: zero plus the message entries of the padded rows whose destination is `n`. -/
theorem aggr_apply (W : Valuation τ sig (Elt Ideal)) (n : Fin 50000) (k : Fin 256) :
    aggrOf W (ix2 n k)
      = Spec.zero + ∑ e : Fin 800768,
          if (dstOf W (ix1 e)).toInt = (n.val : Int) then msgOf W (ix2 e k) else 0 := by
  refine (congrFun (after_hostOps1_v15 W) (ix2 n k)).trans ((scatter_rows_at _ _ _ n k).trans ?_)
  rw [broadcastInDim_apply _ bcast_S_S50000x256 _ (ix2 n k) ix0 (fun a => a.elim0), constant_apply]
  refine congrArg (Spec.zero + ·) (Finset.sum_congr rfl fun e _ => ?_)
  rw [dstCol_apply, extf_apply]

end Cert.KernelIdeal.HostValue

end
-- ==== Proof.KI.HostPads.lean ====
import proofs.«420832_j83571473646104_4_alg».proof.Proof.KI.HostTerms
import Idealize.ShloMosaic.Lib.StableHlo.Run

set_option maxRecDepth 16384

noncomputable section

namespace Cert.KernelIdeal.HostValue

open Idealize.ShloMosaic Idealize.ShloMosaic.ValueIdx Idealize.ShloMosaic.TcCoe Idealize.SL.Sem
open Cert.KernelIdeal Cert.KernelIdeal.Gen Cert.PadSum

section Stretches

variable (W : Valuation τ sig (Elt Ideal))

theorem after0_v1 :
    (StableHlo.after hostOps0 W (Proc.devRef .tc main_v1) : S800000.Idx → BitVec 32)
      = shapeCast S800000 (extractStridedSlice S1x800000 ![0, 0] (W (Proc.devRef .tc main_arg1) : S2x800000.Idx → BitVec 32)
          slices_S2x800000_S1x800000_0_0) shapeCasts_S1x800000_S800000 := by
  after_results; rfl

theorem after0_v3 :
    (StableHlo.after hostOps0 W (Proc.devRef .tc main_v3) : S800000.Idx → BitVec 32)
      = shapeCast S800000 (extractStridedSlice S1x800000 ![1, 0] (W (Proc.devRef .tc main_arg1) : S2x800000.Idx → BitVec 32)
          slices_S2x800000_S1x800000_1_0) shapeCasts_S1x800000_S800000 := by
  after_results; rfl

theorem after0_v4 :
    (StableHlo.after hostOps0 W (Proc.devRef .tc main_v4) : FVec Ideal S800000x1 .f32)
      = extractStridedSlice S800000x1 ![0, 0] (W (Proc.devRef .tc main_arg2) : FVec Ideal S800000x17 .f32)
          slices_S800000x17_S800000x1_0_0 := by
  after_results

theorem after0_cst :
    (StableHlo.after hostOps0 W (Proc.devRef .tc main_cst) : FVec Ideal S_ .f32)
      = constant (F := Ideal) S_ .f32 0x00000000#32 := by
  after_results

theorem after0_cst_0 :
    (StableHlo.after hostOps0 W (Proc.devRef .tc main_cst_0) : FVec Ideal S_ .f32)
      = constant (F := Ideal) S_ .f32 0x3F800000#32 := by
  after_results

theorem after1_v5 :
    (StableHlo.after hostOps0_1 W (Proc.devRef .tc main_v5) : FVec Ideal S800000x1 .f32)
      = (minimumf (broadcastInDim S800000x1 ![] bcast_S_S800000x1 (W (Proc.devRef .tc main_cst_0) : FVec Ideal S_ .f32))
          (maximumf (broadcastInDim S800000x1 ![] bcast_S_S800000x1 (W (Proc.devRef .tc main_cst) : FVec Ideal S_ .f32))
            (W (Proc.devRef .tc main_v4) : FVec Ideal S800000x1 .f32)) : FVec Ideal S800000x1 .f32) := by
  after_results; rfl

theorem after2_v6 :
    (StableHlo.after hostOps0_2 W (Proc.devRef .tc main_v6) : FVec Ideal S800000x16 .f32)
      = extractStridedSlice S800000x16 ![0, 1] (W (Proc.devRef .tc main_arg2) : FVec Ideal S800000x17 .f32)
          slices_S800000x17_S800000x16_0_1 := by
  after_results

theorem after3_v7 :
    (StableHlo.after hostOps0_3 W (Proc.devRef .tc main_v7) : S800768.Idx → BitVec 32)
      = pad S800768 ![0] ![768] ![0] (W (Proc.devRef .tc main_v1) : S800000.Idx → BitVec 32)
          (W (Proc.devRef .tc main_c) : S_.Idx → BitVec 32) pads_S800000_S800768_07680 h_S_ := by
  after_results; rfl

theorem after5_v8 :
    (StableHlo.after hostOps0_5 W (Proc.devRef .tc main_v8) : FVec Ideal S800768x16 .f32)
      = pad S800768x16 ![0, 0] ![768, 0] ![0, 0] (W (Proc.devRef .tc main_v6) : FVec Ideal S800000x16 .f32)
          (sitofp .f32 (W (Proc.devRef .tc main_c_1) : S_.Idx → BitVec 32) : FVec Ideal S_ .f32)
          pads_S800000x16_S800768x16_07680_000 h_S_ := by
  after_results; rfl

theorem after7_v9 :
    (StableHlo.after hostOps0_7 W (Proc.devRef .tc main_v9) : FVec Ideal S800768x1 .f32)
      = pad S800768x1 ![0, 0] ![768, 0] ![0, 0] (W (Proc.devRef .tc main_v5) : FVec Ideal S800000x1 .f32)
          (sitofp .f32 (W (Proc.devRef .tc main_c_2) : S_.Idx → BitVec 32) : FVec Ideal S_ .f32)
          pads_S800000x1_S800768x1_07680_000 h_S_ := by
  after_results; rfl

theorem after8_c_3 :
    (StableHlo.after hostOps0_8 W (Proc.devRef .tc main_c_3) : S_.Idx → BitVec 32) = constantI S_ 32 50000#32 := by
  after_results

theorem after9_v10 :
    (StableHlo.after hostOps0_9 W (Proc.devRef .tc main_v10) : S800768.Idx → BitVec 32)
      = pad S800768 ![0] ![768] ![0] (W (Proc.devRef .tc main_v3) : S800000.Idx → BitVec 32)
          (W (Proc.devRef .tc main_c_3) : S_.Idx → BitVec 32) pads_S800000_S800768_07680 h_S_ := by
  after_results; rfl

end Stretches

section Entry

variable (m : (ℓ : Loc nD τ sig) → Buf (Elt Ideal) ℓ) (c : Dev nD)

abbrev eiOf : S2x800000.Idx → BitVec 32 := m ((c.tc : Thread nD τ).loc main_arg1)

abbrev eaOf : Spec.Mat 800000 17 := m ((c.tc : Thread nD τ).loc main_arg2)

theorem V10_main_v7_eq :
    (V10 m c main_v7 : S800768.Idx → BitVec 32)
      = pad S800768 ![0] ![768] ![0]
          (shapeCast S800000 (extractStridedSlice S1x800000 ![0, 0] (eiOf m c) slices_S2x800000_S1x800000_0_0)
            shapeCasts_S1x800000_S800000)
          (V3 m c main_c : S_.Idx → BitVec 32) pads_S800000_S800768_07680 h_S_ := by
  refine (V10_of m c main_v7 (by decide)).trans <| (V9_of m c main_v7 (by decide)).trans <|
    (V8_of m c main_v7 (by decide)).trans <| (V7_of m c main_v7 (by decide)).trans <|
    (V6_of m c main_v7 (by decide)).trans <| (V5_of m c main_v7 (by decide)).trans <|
    (after3_v7 (V3 m c)).trans ?_
  rw [V3_of m c main_v1 (by decide), V2_of m c main_v1 (by decide)]
  exact congrArg (fun x : S800000.Idx → BitVec 32 =>
    pad S800768 ![0] ![768] ![0] x (V3 m c main_c : S_.Idx → BitVec 32) pads_S800000_S800768_07680 h_S_) (after0_v1 (V0 m c))

theorem srcp_up (e : Fin 800000) :
    (V10 m c main_v7 : S800768.Idx → BitVec 32) (ix1 (up e)) = eiOf m c (ix2 (0 : Fin 2) e) :=
  (congrFun (V10_main_v7_eq m c) (ix1 (up e))).trans <|
    (padVec_up _ _ _ _ e).trans (sliceRow_apply (eiOf m c) 0 0 rfl _ _ e)

theorem V10_main_v10_eq :
    (V10 m c main_v10 : S800768.Idx → BitVec 32)
      = pad S800768 ![0] ![768] ![0]
          (shapeCast S800000 (extractStridedSlice S1x800000 ![1, 0] (eiOf m c) slices_S2x800000_S1x800000_1_0)
            shapeCasts_S1x800000_S800000)
          (constantI S_ 32 50000#32) pads_S800000_S800768_07680 h_S_ := by
  refine (after9_v10 (V9 m c)).trans ?_
  rw [V9_of m c main_v3 (by decide), V8_of m c main_v3 (by decide), V7_of m c main_v3 (by decide),
    V6_of m c main_v3 (by decide), V5_of m c main_v3 (by decide), V4_of m c main_v3 (by decide),
    V3_of m c main_v3 (by decide), V2_of m c main_v3 (by decide)]
  rw [show (V9 m c main_c_3 : S_.Idx → BitVec 32) = constantI S_ 32 50000#32 from after8_c_3 (V8 m c)]
  exact congrArg (fun x : S800000.Idx → BitVec 32 =>
    pad S800768 ![0] ![768] ![0] x (constantI S_ 32 50000#32) pads_S800000_S800768_07680 h_S_) (after0_v3 (V0 m c))

theorem dstp_up (e : Fin 800000) :
    (V10 m c main_v10 : S800768.Idx → BitVec 32) (ix1 (up e)) = eiOf m c (ix2 (1 : Fin 2) e) :=
  (congrFun (V10_main_v10_eq m c) (ix1 (up e))).trans <|
    (padVec_up _ _ _ _ e).trans (sliceRow_apply (eiOf m c) 1 1 rfl _ _ e)

theorem dstp_high (e : Fin 800768) (he : 800000 ≤ e.val) :
    (V10 m c main_v10 : S800768.Idx → BitVec 32) (ix1 e) = 50000#32 :=
  (congrFun (V10_main_v10_eq m c) (ix1 e)).trans <| (padVec_high _ _ _ _ e he).trans (constantI_apply _ _)

theorem rawp_up (e : Fin 800000) (j : Fin 16) :
    (V10 m c main_v8 : Spec.Mat 800768 16) (ix2 (up e) j) = eaOf m c (ix2 e (⟨j.val + 1, by omega⟩ : Fin 17)) := by
  have h8 : (V10 m c main_v8 : FVec Ideal S800768x16 .f32)
      = pad S800768x16 ![0, 0] ![768, 0] ![0, 0] (V5 m c main_v6 : FVec Ideal S800000x16 .f32)
          (sitofp .f32 (V5 m c main_c_1 : S_.Idx → BitVec 32) : FVec Ideal S_ .f32)
          pads_S800000x16_S800768x16_07680_000 h_S_ :=
    (V10_of m c main_v8 (by decide)).trans <| (V9_of m c main_v8 (by decide)).trans <|
      (V8_of m c main_v8 (by decide)).trans <| (V7_of m c main_v8 (by decide)).trans <| after5_v8 (V5 m c)
  have h6 : (V5 m c main_v6 : FVec Ideal S800000x16 .f32)
      = extractStridedSlice S800000x16 ![0, 1] (eaOf m c) slices_S800000x17_S800000x16_0_1 :=
    (V5_of m c main_v6 (by decide)).trans <| (V4_of m c main_v6 (by decide)).trans <|
      (after2_v6 (V2 m c)).trans <| congrArg (fun x : FVec Ideal S800000x17 .f32 =>
        extractStridedSlice S800000x16 ![0, 1] x slices_S800000x17_S800000x16_0_1)
        ((V2_of m c main_arg2 (by decide)).trans (V1_of m c main_arg2 (by decide)))
  refine (congrFun h8 (ix2 (up e) j)).trans <| (padMat_up _ _ _ _ e j).trans ?_
  rw [h6]
  exact sliceRaw_apply (eaOf m c) _ e j

theorem polp_up (e : Fin 800000) :
    (V10 m c main_v9 : Spec.Mat 800768 1) (ix2 (up e) (0 : Fin 1)) = Spec.clip01 (eaOf m c (ix2 e (0 : Fin 17))) := by
  have h9 : (V10 m c main_v9 : FVec Ideal S800768x1 .f32)
      = pad S800768x1 ![0, 0] ![768, 0] ![0, 0] (V7 m c main_v5 : FVec Ideal S800000x1 .f32)
          (sitofp .f32 (V7 m c main_c_2 : S_.Idx → BitVec 32) : FVec Ideal S_ .f32)
          pads_S800000x1_S800768x1_07680_000 h_S_ :=
    (V10_of m c main_v9 (by decide)).trans <| (V9_of m c main_v9 (by decide)).trans <| after7_v9 (V7 m c)
  have h5 : (V7 m c main_v5 : FVec Ideal S800000x1 .f32)
      = minimumf (broadcastInDim S800000x1 ![] bcast_S_S800000x1 (constant (F := Ideal) S_ .f32 0x3F800000#32))
          (maximumf (broadcastInDim S800000x1 ![] bcast_S_S800000x1 (constant (F := Ideal) S_ .f32 0x00000000#32))
            (extractStridedSlice S800000x1 ![0, 0] (eaOf m c) slices_S800000x17_S800000x1_0_0)) := by
    refine (V7_of m c main_v5 (by decide)).trans <| (V6_of m c main_v5 (by decide)).trans <|
      (V5_of m c main_v5 (by decide)).trans <| (V4_of m c main_v5 (by decide)).trans <|
      (V3_of m c main_v5 (by decide)).trans <| (after1_v5 (V1 m c)).trans ?_
    rw [show (V1 m c main_cst_0 : FVec Ideal S_ .f32) = _ from after0_cst_0 (V0 m c),
      show (V1 m c main_cst : FVec Ideal S_ .f32) = _ from after0_cst (V0 m c),
      show (V1 m c main_v4 : FVec Ideal S800000x1 .f32) = _ from after0_v4 (V0 m c)]
  refine (congrFun h9 (ix2 (up e) (0 : Fin 1))).trans <| (padMat_up _ _ _ _ e (0 : Fin 1)).trans ?_
  rw [h5, clip_apply]
  exact congrArg Spec.clip01 (slicePol_apply (eaOf m c) _ e)

end Entry

end Cert.KernelIdeal.HostValue

end
-- ==== Proof.KI.BridgeMath.lean ====
import proofs.«420832_j83571473646104_4_alg».proof.Proof.KI.PadSum
import proofs.«420832_j83571473646104_4_alg».proof.Proof.KI.MsgSpec
import proofs.«420832_j83571473646104_4_alg».proof.Proof.RefSpec

noncomputable section

namespace Cert.KernelIdeal.HandValue

open Idealize.ShloMosaic Idealize.ShloMosaic.ValueIdx Cert.PadSum Cert.ReferenceIdeal.RefSide

variable (x : Spec.Mat 50000 256) (ei : (⟨2, ![2, 800000]⟩ : Shape).Idx → BitVec 32) (ea : Spec.Mat 800000 17)
  (ew1 : Spec.Mat 16 128) (eb1 : Spec.Vc 128) (ew2 : Spec.Mat 128 128) (eb2 : Spec.Vc 128)
  (lew : Spec.Mat 128 256) (leb : Spec.Vc 256)
  (rawp : Spec.Mat 800768 16) (polp : Spec.Mat 800768 1) (srcp dstp : (⟨1, ![800768]⟩ : Shape).Idx → BitVec 32)

theorem xrow_up (e : Fin 800000) (hs : srcp (ix1 (up e)) = ei (ix2 (0 : Fin 2) e))
    (h0 : 0 ≤ (ei (ix2 (0 : Fin 2) e)).toInt) (h1 : (ei (ix2 (0 : Fin 2) e)).toInt < 50000) :
    (fun j : Fin 256 => xAt x (srcp (ix1 (up e))).toNat j) = fun j => x (ix2 (srcRow ei e) j) := by
  funext j
  rw [hs]
  unfold xAt
  rw [dif_pos (by have := toNat_of_inRange _ h0 h1; omega)]
  exact congrArg (fun r : Fin 50000 => x (ix2 r j)) (Fin.ext (srcRow_val_of_inRange ei e h0 h1).symm)

theorem msg_up (e : Fin 800000) (hs : srcp (ix1 (up e)) = ei (ix2 (0 : Fin 2) e))
    (hr : ∀ j : Fin 16, rawp (ix2 (up e) j) = ea (ix2 e (⟨j.val + 1, by omega⟩ : Fin 17)))
    (hp : polp (ix2 (up e) (0 : Fin 1)) = Spec.clip01 (ea (ix2 e (0 : Fin 17))))
    (h0 : 0 ≤ (ei (ix2 (0 : Fin 2) e)).toInt) (h1 : (ei (ix2 (0 : Fin 2) e)).toInt < 50000) (k : Fin 256) :
    msgArr x rawp polp srcp ew1 eb1 ew2 eb2 lew leb (ix2 (up e) k) = msgR x ei ea ew1 eb1 ew2 eb2 lew leb e k := by
  have hraw : Spec.rowOf rawp (up e) = rawR ea e := funext fun j => hr j
  show Spec.msgRow (fun j => xAt x (srcp (ix1 (up e))).toNat j)
      (Spec.embRow (Spec.rowOf rawp (up e)) (polp (ix2 (up e) (0 : Fin 1))) ew1 eb1 ew2 eb2 lew leb) k
    = Spec.msgRow (fun j => x (ix2 (srcRow ei e) j)) (Spec.embRow (rawR ea e) (polR ea e) ew1 eb1 ew2 eb2 lew leb) k
  rw [xrow_up x ei srcp e hs h0 h1, hraw, hp]
  rfl

theorem aggr_eq (hs : ∀ e : Fin 800000, srcp (ix1 (up e)) = ei (ix2 (0 : Fin 2) e))
    (hd : ∀ e : Fin 800000, dstp (ix1 (up e)) = ei (ix2 (1 : Fin 2) e))
    (hdpad : ∀ e : Fin 800768, 800000 ≤ e.val → dstp (ix1 e) = 50000#32)
    (hr : ∀ (e : Fin 800000) (j : Fin 16), rawp (ix2 (up e) j) = ea (ix2 e (⟨j.val + 1, by omega⟩ : Fin 17)))
    (hp : ∀ e : Fin 800000, polp (ix2 (up e) (0 : Fin 1)) = Spec.clip01 (ea (ix2 e (0 : Fin 17))))
    (hrange : ∀ e : Fin 800000, 0 ≤ (ei (ix2 (0 : Fin 2) e)).toInt ∧ (ei (ix2 (0 : Fin 2) e)).toInt < 50000)
    (n : Fin 50000) (k : Fin 256) :
    Spec.zero + (∑ e : Fin 800768, if (dstp (ix1 e)).toInt = (n.val : Int)
        then msgArr x rawp polp srcp ew1 eb1 ew2 eb2 lew leb (ix2 e k) else 0)
      = aggrR x ei ea ew1 eb1 ew2 eb2 lew leb n k := by
  unfold aggrR
  exact congrArg (Spec.zero + ·)
    (aggr_padded_eq (fun e => dstp (ix1 e)) (fun e => msgArr x rawp polp srcp ew1 eb1 ew2 eb2 lew leb (ix2 e k))
      (fun e => ei (ix2 (1 : Fin 2) e)) (fun e => msgR x ei ea ew1 eb1 ew2 eb2 lew leb e k)
      hdpad hd (fun e => msg_up x ei ea ew1 eb1 ew2 eb2 lew leb rawp polp srcp e (hs e) (hr e) (hp e) (hrange e).1 (hrange e).2 k) n)

end Cert.KernelIdeal.HandValue

end
-- ==== Proof.Bridge.lean ====
import proofs.«420832_j83571473646104_4_alg».proof.Proof.KI.Run
import proofs.«420832_j83571473646104_4_alg».proof.Proof.KI.Reg0Value
import proofs.«420832_j83571473646104_4_alg».proof.Proof.KI.Reg1Value
import proofs.«420832_j83571473646104_4_alg».proof.Proof.KI.HostValue
import proofs.«420832_j83571473646104_4_alg».proof.Proof.KI.HostPads
import proofs.«420832_j83571473646104_4_alg».proof.Proof.KI.BridgeMath

set_option maxRecDepth 16384

noncomputable section

namespace Cert.KernelIdeal.HandValue

open Idealize.ShloMosaic Idealize.ShloMosaic.ValueIdx Idealize.ShloMosaic.TcCoe Idealize.SL.Sem
open Cert.KernelIdeal Cert.KernelIdeal.Gen Cert.KernelIdeal.Hand Cert.KernelIdeal.HostValue Cert.PadSum
open Cert.ReferenceIdeal.RefSide (refOut aggrR)

variable (m : (ℓ : Loc nD τ sig) → Buf (Elt Ideal) ℓ)

abbrev a0 (c : Dev nD) : Spec.Mat 50000 256 := m ((c.tc : Thread nD τ).loc main_arg0)
abbrev a3 (c : Dev nD) : Spec.Mat 16 128 := m ((c.tc : Thread nD τ).loc main_arg3)
abbrev a4 (c : Dev nD) : Spec.Vc 128 := m ((c.tc : Thread nD τ).loc main_arg4)
abbrev a5 (c : Dev nD) : Spec.Mat 128 128 := m ((c.tc : Thread nD τ).loc main_arg5)
abbrev a6 (c : Dev nD) : Spec.Vc 128 := m ((c.tc : Thread nD τ).loc main_arg6)
abbrev a7 (c : Dev nD) : Spec.Mat 128 256 := m ((c.tc : Thread nD τ).loc main_arg7)
abbrev a8 (c : Dev nD) : Spec.Vc 256 := m ((c.tc : Thread nD τ).loc main_arg8)
abbrev a9 (c : Dev nD) : Spec.Mat 256 256 := m ((c.tc : Thread nD τ).loc main_arg9)
abbrev a10 (c : Dev nD) : Spec.Vc 256 := m ((c.tc : Thread nD τ).loc main_arg10)
abbrev a11 (c : Dev nD) : Spec.Vc 256 := m ((c.tc : Thread nD τ).loc main_arg11)
abbrev a12 (c : Dev nD) : Spec.Vc 256 := m ((c.tc : Thread nD τ).loc main_arg12)
abbrev a13 (c : Dev nD) : Spec.Mat 256 256 := m ((c.tc : Thread nD τ).loc main_arg13)
abbrev a14 (c : Dev nD) : Spec.Vc 256 := m ((c.tc : Thread nD τ).loc main_arg14)

abbrev srcpOf (c : Dev nD) : S800768.Idx → BitVec 32 := V10 m c main_v7
abbrev dstpOf (c : Dev nD) : S800768.Idx → BitVec 32 := V10 m c main_v10
abbrev rawpOf (c : Dev nD) : Spec.Mat 800768 16 := V10 m c main_v8
abbrev polpOf (c : Dev nD) : Spec.Mat 800768 1 := V10 m c main_v9

abbrev Unwritten0 (r : Ref sig .tc) : Prop :=
  r ∉ hostOps0_W ∧ r ∉ hostOps0_1_W ∧ r ∉ hostOps0_2_W ∧ r ∉ hostOps0_3_W ∧ r ∉ hostOps0_4_W ∧ r ∉ hostOps0_5_W
    ∧ r ∉ hostOps0_6_W ∧ r ∉ hostOps0_7_W ∧ r ∉ hostOps0_8_W ∧ r ∉ hostOps0_9_W

/-- An argument that nothing before the edge region writes is, where that region finds it, as launched. -/
theorem VA_arg (c : Dev nD) (r : Ref sig .tc) (h : Unwritten0 r) : VA m c r = m ((c : Thread nD τ).loc r) := by
  obtain ⟨h0, h1, h2, h3, h4, h5, h6, h7, h8, h9⟩ := h
  exact WA_arg m c r h0 h1 h2 h3 h4 h5 h6 h7 h8 h9

/-- If the edge region and what follows it leave it alone as well, the node region finds it as launched too. -/
theorem VC_arg (c : Dev nD) (r : Ref sig .tc) (h : r ∉ hostOps1_W ∧ (∀ w, Pipeline.arrRef spec0 w ≠ r) ∧ Unwritten0 r) :
    VC m c r = m ((c : Thread nD τ).loc r) :=
  (WC_of m c r h.1).trans <| (WB_of_ne m c r h.2.1).trans (VA_arg m c r h.2.2)

theorem msg_eq (hH : Hyps0 (VA m)) (c : Dev nD) :
    msgOf (WB m c) = msgArr (a0 m c) (rawpOf m c) (polpOf m c) (srcpOf m c) (a3 m c) (a4 m c) (a5 m c) (a6 m c)
      (a7 m c) (a8 m c) := by
  refine (WB_arr m c 9).trans <| (final0 (VA m) hH c).trans ?_
  rw [VA_arg m c main_arg0 (by decide),
    VA_arg m c main_arg3 (by decide),
    VA_arg m c main_arg4 (by decide),
    VA_arg m c main_arg5 (by decide),
    VA_arg m c main_arg6 (by decide),
    VA_arg m c main_arg7 (by decide),
    VA_arg m c main_arg8 (by decide)]

theorem dst_eq (c : Dev nD) : dstOf (WB m c) = dstpOf m c := WB_of_ne m c main_v10 (by decide)

theorem aggr_sum_congr (d d' : IVec S800768 32) (M M' : Spec.Mat 800768 256) (hd : d = d') (hM : M = M')
    (n : Fin 50000) (k : Fin 256) :
    (Spec.zero + ∑ e : Fin 800768, if (d (ix1 e)).toInt = (n.val : Int) then M (ix2 e k) else 0)
      = Spec.zero + ∑ e : Fin 800768, if (d' (ix1 e)).toInt = (n.val : Int) then M' (ix2 e k) else 0 := by
  subst hd hM; rfl

theorem aggr_bridge (hpre : PreAt m) (c : Dev nD) (n : Fin 50000) (k : Fin 256) :
    aggrOf (WB m c) (ix2 n k)
      = aggrR (a0 m c) (eiOf m c) (eaOf m c) (a3 m c) (a4 m c) (a5 m c) (a6 m c) (a7 m c) (a8 m c) n k :=
  (aggr_apply (WB m c) n k).trans <|
    (aggr_sum_congr _ _ _ _ (dst_eq m c) (msg_eq m (hyps_of_pre m hpre) c) n k).trans <|
      aggr_eq (a0 m c) (eiOf m c) (eaOf m c) (a3 m c) (a4 m c) (a5 m c) (a6 m c) (a7 m c) (a8 m c)
        (rawpOf m c) (polpOf m c) (srcpOf m c) (dstpOf m c)
        (srcp_up m c) (dstp_up m c) (dstp_high m c) (rawp_up m c) (polp_up m c) (src_range_of_pre m hpre c) n k

theorem kernel_result (hpre : PreAt m) (c : Dev nD) :
    (dat1 (F := Ideal) (VC m) c).arrAt 8 cfg1.N
      = refOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13))
          (m ((c.tc : Thread nD τ).loc main_arg14)) := by
  refine (final1 (VC m) c).trans ?_
  rw [VC_arg m c main_arg0 (by decide),
    VC_arg m c main_arg9 (by decide),
    VC_arg m c main_arg10 (by decide),
    VC_arg m c main_arg11 (by decide),
    VC_arg m c main_arg12 (by decide),
    VC_arg m c main_arg13 (by decide),
    VC_arg m c main_arg14 (by decide)]
  exact postRow_congr (a0 m c) (aggrOf (WB m c))
    (aggrR (a0 m c) (eiOf m c) (eaOf m c) (a3 m c) (a4 m c) (a5 m c) (a6 m c) (a7 m c) (a8 m c))
    (aggr_bridge m hpre c) (a9 m c) (a10 m c) (a11 m c) (a12 m c) (a13 m c) (a14 m c)

end Cert.KernelIdeal.HandValue

end
-- ==== Proof.lean ====
/- A message-passing layer: a node sums, over the edges that reach it, the positive part of the source node's features
   plus a dense network of the edge's attributes, adds its own features and applies a dense layer, a layer norm, a
   positive part and a dense layer. Tiling changes no sum over the extended reals; padded edges reach no node. -/
import proofs.«420832_j83571473646104_4_alg».proof.Defs
import proofs.«420832_j83571473646104_4_alg».proof.Proof.Gen.Kernel
import proofs.«420832_j83571473646104_4_alg».proof.Proof.Gen.KernelIdeal
import proofs.«420832_j83571473646104_4_alg».proof.Proof.Gen.ReferenceIdeal
import proofs.«420832_j83571473646104_4_alg».proof.Proof.Gen.Pre_finite_inputs
import proofs.«420832_j83571473646104_4_alg».proof.Proof.Gen.ReferenceIdeal.Run
import proofs.«420832_j83571473646104_4_alg».proof.Proof.KI.Run
import proofs.«420832_j83571473646104_4_alg».proof.Proof.KI.HypsOfPre
import proofs.«420832_j83571473646104_4_alg».proof.Proof.KB.Run
import proofs.«420832_j83571473646104_4_alg».proof.Proof.KB.HypsOfPre
import proofs.«420832_j83571473646104_4_alg».proof.Proof.RefSide
import proofs.«420832_j83571473646104_4_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ h =>
  Cert.Kernel.Hand.frame m ρ (Cert.Kernel.Hand.hyps_of_pre m h)

theorem frame_ki : Cert.frame_KernelIdeal := fun m ρ h =>
  Cert.KernelIdeal.Hand.frame m ρ (Cert.KernelIdeal.Hand.hyps_of_pre m h)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic :
    Cert.algebraic_KernelIdeal_ReferenceIdeal := by
  intro m ρ m' ρ' hpre hagree
  have hH := Cert.KernelIdeal.Hand.hyps_of_pre m hpre
  refine ⟨fun c => (Cert.KernelIdeal.Hand.dat1 (F := Ideal) (Cert.KernelIdeal.Hand.VC m) c).arrAt 8 Cert.KernelIdeal.cfg1.N,
    Cert.KernelIdeal.Hand.run_result m ρ hH, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14⟩ := hagree c
  refine ((Cert.ReferenceIdeal.RefSide.ref_eq m' c).trans ?_).trans (Cert.KernelIdeal.HandValue.kernel_result m hpre c).symm
  rw [h0, h1, h2, h3, h4, h5, h6, h7, h8, h9, h10, h11, h12, h13, h14]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
